-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v163)) (v1 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_v211) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S8x64x64 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64x64 .f32 := Host.absf main_arg5
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1200000 32) (main_arg2 : FVec F S1200000 .f32) (main_arg3 : FVec F S256x64 .f32) (main_arg4 : FVec F S64 .f32) (main_arg5 : FVec F S8x64x64 .f32) (main_arg6 : FVec F S64x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S100000x64 : Shape := ⟨2, ![100000, 64]⟩
abbrev S2000x256 : Shape := ⟨2, ![2000, 256]⟩
abbrev S2000x64 : Shape := ⟨2, ![2000, 64]⟩
abbrev S1x64 : Shape := ⟨2, ![1, 64]⟩
abbrev S1200000x64 : Shape := ⟨2, ![1200000, 64]⟩
abbrev S1x64x64 : Shape := ⟨3, ![1, 64, 64]⟩
abbrev S64x64 : Shape := ⟨2, ![64, 64]⟩
abbrev S100000x40 : Shape := ⟨2, ![100000, 40]⟩
abbrev S2000x40 : Shape := ⟨2, ![2000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 284
  | .vmem => 84
  | .smem => 0
  | _ => 0

abbrev hbmTy0_0 (i : Nat) : BufTy := match i % 128 with
  | 0 => ⟨S100000x256, .f32⟩
  | 1 => ⟨S2x1200000, .i32⟩
  | 2 => ⟨S1200000, .f32⟩
  | 3 => ⟨S256x64, .f32⟩
  | 4 => ⟨S64, .f32⟩
  | 5 => ⟨S8x64x64, .f32⟩
  | 6 => ⟨S64x40, .f32⟩
  | 7 => ⟨S40, .f32⟩
  | 8 => ⟨S1x1200000, .i32⟩
  | 9 => ⟨S1200000, .i32⟩
  | 10 => ⟨S1x1200000, .i32⟩
  | 11 => ⟨S1200000, .i32⟩
  | 12 => ⟨S1x1200000, .i32⟩
  | 13 => ⟨S1200000, .i32⟩
  | 14 => ⟨S1x1200000, .i32⟩
  | 15 => ⟨S1200000, .i32⟩
  | 16 => ⟨S_, .f32⟩
  | 17 => ⟨S100000, .f32⟩
  | 18 => ⟨S1200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S1200000, .f32⟩
  | 55 => ⟨S100000x64, .f32⟩
  | 56 => ⟨S1200000x1, .f32⟩
  | 57 => ⟨S_, .i32⟩
  | 58 => ⟨S1200000, .i32⟩
  | 59 => ⟨S1200000, .i1⟩
  | 60 => ⟨S_, .i32⟩
  | 61 => ⟨S1200000, .i32⟩
  | 62 => ⟨S1200000, .i32⟩
  | 63 => ⟨S1200000, .i32⟩
  | 64 => ⟨S1200000x1, .i32⟩
  | 65 => ⟨S1200000x64, .f32⟩
  | 66 => ⟨S1200000x64, .f32⟩
  | 67 => ⟨S1200000x64, .f32⟩
  | 68 => ⟨S_, .f32⟩
  | 69 => ⟨S100000x64, .f32⟩
  | 70 => ⟨S1200000x1, .i32⟩
  | 71 => ⟨S100000x64, .f32⟩
  | 72 => ⟨S1x64x64, .f32⟩
  | 73 => ⟨S64x64, .f32⟩
  | 74 => ⟨S100000x64, .f32⟩
  | 75 => ⟨S1200000x1, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000x64, .f32⟩
  | 85 => ⟨S1200000x64, .f32⟩
  | 86 => ⟨S1200000x64, .f32⟩
  | 87 => ⟨S_, .f32⟩
  | 88 => ⟨S100000x64, .f32⟩
  | 89 => ⟨S1200000x1, .i32⟩
  | 90 => ⟨S100000x64, .f32⟩
  | 91 => ⟨S1x64x64, .f32⟩
  | 92 => ⟨S64x64, .f32⟩
  | 93 => ⟨S100000x64, .f32⟩
  | 94 => ⟨S1200000x1, .f32⟩
  | 95 => ⟨S_, .i32⟩
  | 96 => ⟨S1200000, .i32⟩
  | 97 => ⟨S1200000, .i1⟩
  | 98 => ⟨S_, .i32⟩
  | 99 => ⟨S1200000, .i32⟩
  | 100 => ⟨S1200000, .i32⟩
  | 101 => ⟨S1200000, .i32⟩
  | 102 => ⟨S1200000x1, .i32⟩
  | 103 => ⟨S1200000x64, .f32⟩
  | 104 => ⟨S1200000x64, .f32⟩
  | 105 => ⟨S1200000x64, .f32⟩
  | 106 => ⟨S_, .f32⟩
  | 107 => ⟨S100000x64, .f32⟩
  | 108 => ⟨S1200000x1, .i32⟩
  | 109 => ⟨S100000x64, .f32⟩
  | 110 => ⟨S1x64x64, .f32⟩
  | 111 => ⟨S64x64, .f32⟩
  | 112 => ⟨S100000x64, .f32⟩
  | 113 => ⟨S1200000x1, .f32⟩
  | 114 => ⟨S_, .i32⟩
  | 115 => ⟨S1200000, .i32⟩
  | 116 => ⟨S1200000, .i1⟩
  | 117 => ⟨S_, .i32⟩
  | 118 => ⟨S1200000, .i32⟩
  | 119 => ⟨S1200000, .i32⟩
  | 120 => ⟨S1200000, .i32⟩
  | 121 => ⟨S1200000x1, .i32⟩
  | 122 => ⟨S1200000x64, .f32⟩
  | 123 => ⟨S1200000x64, .f32⟩
  | 124 => ⟨S1200000x64, .f32⟩
  | 125 => ⟨S_, .f32⟩
  | 126 => ⟨S100000x64, .f32⟩
  | 127 => ⟨S1200000x1, .i32⟩
  | _ => ⟨S100000x256, .f32⟩

abbrev hbmTy0_1 (i : Nat) : BufTy := match i % 128 with
  | 0 => ⟨S100000x64, .f32⟩
  | 1 => ⟨S1x64x64, .f32⟩
  | 2 => ⟨S64x64, .f32⟩
  | 3 => ⟨S100000x64, .f32⟩
  | 4 => ⟨S1200000x1, .f32⟩
  | 5 => ⟨S_, .i32⟩
  | 6 => ⟨S1200000, .i32⟩
  | 7 => ⟨S1200000, .i1⟩
  | 8 => ⟨S_, .i32⟩
  | 9 => ⟨S1200000, .i32⟩
  | 10 => ⟨S1200000, .i32⟩
  | 11 => ⟨S1200000, .i32⟩
  | 12 => ⟨S1200000x1, .i32⟩
  | 13 => ⟨S1200000x64, .f32⟩
  | 14 => ⟨S1200000x64, .f32⟩
  | 15 => ⟨S1200000x64, .f32⟩
  | 16 => ⟨S_, .f32⟩
  | 17 => ⟨S100000x64, .f32⟩
  | 18 => ⟨S1200000x1, .i32⟩
  | 19 => ⟨S100000x64, .f32⟩
  | 20 => ⟨S1x64x64, .f32⟩
  | 21 => ⟨S64x64, .f32⟩
  | 22 => ⟨S100000x64, .f32⟩
  | 23 => ⟨S1200000x1, .f32⟩
  | 24 => ⟨S_, .i32⟩
  | 25 => ⟨S1200000, .i32⟩
  | 26 => ⟨S1200000, .i1⟩
  | 27 => ⟨S_, .i32⟩
  | 28 => ⟨S1200000, .i32⟩
  | 29 => ⟨S1200000, .i32⟩
  | 30 => ⟨S1200000, .i32⟩
  | 31 => ⟨S1200000x1, .i32⟩
  | 32 => ⟨S1200000x64, .f32⟩
  | 33 => ⟨S1200000x64, .f32⟩
  | 34 => ⟨S1200000x64, .f32⟩
  | 35 => ⟨S_, .f32⟩
  | 36 => ⟨S100000x64, .f32⟩
  | 37 => ⟨S1200000x1, .i32⟩
  | 38 => ⟨S100000x64, .f32⟩
  | 39 => ⟨S1x64x64, .f32⟩
  | 40 => ⟨S64x64, .f32⟩
  | 41 => ⟨S100000x64, .f32⟩
  | 42 => ⟨S1200000x1, .f32⟩
  | 43 => ⟨S_, .i32⟩
  | 44 => ⟨S1200000, .i32⟩
  | 45 => ⟨S1200000, .i1⟩
  | 46 => ⟨S_, .i32⟩
  | 47 => ⟨S1200000, .i32⟩
  | 48 => ⟨S1200000, .i32⟩
  | 49 => ⟨S1200000, .i32⟩
  | 50 => ⟨S1200000x1, .i32⟩
  | 51 => ⟨S1200000x64, .f32⟩
  | 52 => ⟨S1200000x64, .f32⟩
  | 53 => ⟨S1200000x64, .f32⟩
  | 54 => ⟨S_, .f32⟩
  | 55 => ⟨S100000x64, .f32⟩
  | 56 => ⟨S1200000x1, .i32⟩
  | 57 => ⟨S100000x64, .f32⟩
  | 58 => ⟨S1x64x64, .f32⟩
  | 59 => ⟨S64x64, .f32⟩
  | 60 => ⟨S100000x64, .f32⟩
  | 61 => ⟨S1200000x1, .f32⟩
  | 62 => ⟨S_, .i32⟩
  | 63 => ⟨S1200000, .i32⟩
  | 64 => ⟨S1200000, .i1⟩
  | 65 => ⟨S_, .i32⟩
  | 66 => ⟨S1200000, .i32⟩
  | 67 => ⟨S1200000, .i32⟩
  | 68 => ⟨S1200000, .i32⟩
  | 69 => ⟨S1200000x1, .i32⟩
  | 70 => ⟨S1200000x64, .f32⟩
  | 71 => ⟨S1200000x64, .f32⟩
  | 72 => ⟨S1200000x64, .f32⟩
  | 73 => ⟨S_, .f32⟩
  | 74 => ⟨S100000x64, .f32⟩
  | 75 => ⟨S1200000x1, .i32⟩
  | 76 => ⟨S100000x64, .f32⟩
  | 77 => ⟨S1x64x64, .f32⟩
  | 78 => ⟨S64x64, .f32⟩
  | 79 => ⟨S100000x64, .f32⟩
  | 80 => ⟨S100000x40, .f32⟩
  | 81 => ⟨S64x64, .i32⟩
  | 82 => ⟨S64x64, .i32⟩
  | 83 => ⟨S_, .i32⟩
  | 84 => ⟨S64x64, .i32⟩
  | 85 => ⟨S64x64, .i32⟩
  | 86 => ⟨S64x64, .i1⟩
  | 87 => ⟨S64x64, .f32⟩
  | 88 => ⟨S1x64x64, .f32⟩
  | 89 => ⟨S64x64, .f32⟩
  | 90 => ⟨S_, .f32⟩
  | 91 => ⟨S64x64, .f32⟩
  | 92 => ⟨S64x64, .f32⟩
  | 93 => ⟨S64x64, .f32⟩
  | 94 => ⟨S64x64, .f32⟩
  | 95 => ⟨S_, .f32⟩
  | 96 => ⟨S_, .f32⟩
  | 97 => ⟨S_, .f32⟩
  | 98 => ⟨S1x64x64, .f32⟩
  | 99 => ⟨S64x64, .f32⟩
  | 100 => ⟨S64x64, .f32⟩
  | 101 => ⟨S64x64, .f32⟩
  | 102 => ⟨S_, .f32⟩
  | 103 => ⟨S_, .f32⟩
  | 104 => ⟨S_, .f32⟩
  | 105 => ⟨S_, .f32⟩
  | 106 => ⟨S1x64x64, .f32⟩
  | 107 => ⟨S64x64, .f32⟩
  | 108 => ⟨S64x64, .f32⟩
  | 109 => ⟨S64x64, .f32⟩
  | 110 => ⟨S_, .f32⟩
  | 111 => ⟨S_, .f32⟩
  | 112 => ⟨S_, .f32⟩
  | 113 => ⟨S_, .f32⟩
  | 114 => ⟨S1x64x64, .f32⟩
  | 115 => ⟨S64x64, .f32⟩
  | 116 => ⟨S64x64, .f32⟩
  | 117 => ⟨S64x64, .f32⟩
  | 118 => ⟨S_, .f32⟩
  | 119 => ⟨S_, .f32⟩
  | 120 => ⟨S_, .f32⟩
  | 121 => ⟨S_, .f32⟩
  | 122 => ⟨S1x64x64, .f32⟩
  | 123 => ⟨S64x64, .f32⟩
  | 124 => ⟨S64x64, .f32⟩
  | 125 => ⟨S64x64, .f32⟩
  | 126 => ⟨S_, .f32⟩
  | 127 => ⟨S_, .f32⟩
  | _ => ⟨S100000x256, .f32⟩

abbrev hbmTy0_2 (i : Nat) : BufTy := match i % 128 with
  | 0 => ⟨S_, .f32⟩
  | 1 => ⟨S_, .f32⟩
  | 2 => ⟨S1x64x64, .f32⟩
  | 3 => ⟨S64x64, .f32⟩
  | 4 => ⟨S64x64, .f32⟩
  | 5 => ⟨S64x64, .f32⟩
  | 6 => ⟨S_, .f32⟩
  | 7 => ⟨S_, .f32⟩
  | 8 => ⟨S_, .f32⟩
  | 9 => ⟨S_, .f32⟩
  | 10 => ⟨S1x64x64, .f32⟩
  | 11 => ⟨S64x64, .f32⟩
  | 12 => ⟨S64x64, .f32⟩
  | 13 => ⟨S64x64, .f32⟩
  | 14 => ⟨S_, .f32⟩
  | 15 => ⟨S_, .f32⟩
  | 16 => ⟨S_, .f32⟩
  | 17 => ⟨S_, .f32⟩
  | 18 => ⟨S1x64x64, .f32⟩
  | 19 => ⟨S64x64, .f32⟩
  | 20 => ⟨S64x64, .f32⟩
  | 21 => ⟨S64x64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S64x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S64x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S64x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S64x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S64x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x64, .f32⟩
  | .local _ .vmem, ⟨72, _⟩ => ⟨S2000x64, .f32⟩
  | .local _ .vmem, ⟨73, _⟩ => ⟨S2000x64, .f32⟩
  | .local _ .vmem, ⟨74, _⟩ => ⟨S2000x64, .f32⟩
  | .local _ .vmem, ⟨75, _⟩ => ⟨S64x64, .f32⟩
  | .local _ .vmem, ⟨76, _⟩ => ⟨S2000x64, .f32⟩
  | .local _ .vmem, ⟨77, _⟩ => ⟨S2000x64, .f32⟩
  | .local _ .vmem, ⟨78, _⟩ => ⟨S2000x64, .f32⟩
  | .local _ .vmem, ⟨79, _⟩ => ⟨S2000x64, .f32⟩
  | .local _ .vmem, ⟨80, _⟩ => ⟨S64x40, .f32⟩
  | .local _ .vmem, ⟨81, _⟩ => ⟨S40, .f32⟩
  | .local _ .vmem, ⟨82, _⟩ => ⟨S2000x40, .f32⟩
  | .local _ .vmem, ⟨83, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_19 : Ref sig .tc := ⟨.hbm, 133, rfl⟩
abbrev main_v100 : Ref sig .tc := ⟨.hbm, 134, rfl⟩
abbrev main_v101 : Ref sig .tc := ⟨.hbm, 135, rfl⟩
abbrev main_c_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_21 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_22 : Ref sig .tc := ⟨.hbm, 152, rfl⟩
abbrev main_v116 : Ref sig .tc := ⟨.hbm, 153, rfl⟩
abbrev main_v117 : Ref sig .tc := ⟨.hbm, 154, rfl⟩
abbrev main_c_23 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_24 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_c_25 : Ref sig .tc := ⟨.hbm, 171, rfl⟩
abbrev main_v132 : Ref sig .tc := ⟨.hbm, 172, rfl⟩
abbrev main_v133 : Ref sig .tc := ⟨.hbm, 173, rfl⟩
abbrev main_c_26 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_cst_27 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_c_28 : Ref sig .tc := ⟨.hbm, 190, rfl⟩
abbrev main_v148 : Ref sig .tc := ⟨.hbm, 191, rfl⟩
abbrev main_v149 : Ref sig .tc := ⟨.hbm, 192, rfl⟩
abbrev main_c_29 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_30 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_c_31 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_32 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_call2_v0 : Ref sig .tc := ⟨.hbm, 222, rfl⟩
abbrev main_call2_cst : Ref sig .tc := ⟨.hbm, 223, rfl⟩
abbrev main_call2_v1 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_call3_v0 : Ref sig .tc := ⟨.hbm, 229, rfl⟩
abbrev main_call3_cst : Ref sig .tc := ⟨.hbm, 230, rfl⟩
abbrev main_call3_v1 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_call4_v0 : Ref sig .tc := ⟨.hbm, 237, rfl⟩
abbrev main_call4_cst : Ref sig .tc := ⟨.hbm, 238, rfl⟩
abbrev main_call4_v1 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_call5_v0 : Ref sig .tc := ⟨.hbm, 245, rfl⟩
abbrev main_call5_cst : Ref sig .tc := ⟨.hbm, 246, rfl⟩
abbrev main_call5_v1 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_call6_v0 : Ref sig .tc := ⟨.hbm, 253, rfl⟩
abbrev main_call6_cst : Ref sig .tc := ⟨.hbm, 254, rfl⟩
abbrev main_call6_v1 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_call7_v0 : Ref sig .tc := ⟨.hbm, 261, rfl⟩
abbrev main_call7_cst : Ref sig .tc := ⟨.hbm, 262, rfl⟩
abbrev main_call7_v1 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_call8_v0 : Ref sig .tc := ⟨.hbm, 269, rfl⟩
abbrev main_call8_cst : Ref sig .tc := ⟨.hbm, 270, rfl⟩
abbrev main_call8_v1 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_call9_v0 : Ref sig .tc := ⟨.hbm, 277, rfl⟩
abbrev main_call9_cst : Ref sig .tc := ⟨.hbm, 278, rfl⟩
abbrev main_call9_v1 : Ref sig .tc := ⟨.hbm, 279, rfl⟩
abbrev main_v209 : Ref sig .tc := ⟨.hbm, 280, rfl⟩
abbrev main_v210 : Ref sig .tc := ⟨.hbm, 281, rfl⟩
abbrev main_cst_33 : Ref sig .tc := ⟨.hbm, 282, rfl⟩
abbrev main_v211 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg2_1 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg4_1 : Ref sig .tc := ⟨.vmem, 68, rfl⟩
abbrev cc8_stg0_0 : Ref sig .tc := ⟨.vmem, 69, rfl⟩
abbrev cc8_stg0_1 : Ref sig .tc := ⟨.vmem, 70, rfl⟩
abbrev cc8_stg1_0 : Ref sig .tc := ⟨.vmem, 71, rfl⟩
abbrev cc8_stg1_1 : Ref sig .tc := ⟨.vmem, 72, rfl⟩
abbrev cc8_stg2_0 : Ref sig .tc := ⟨.vmem, 73, rfl⟩
abbrev cc8_stg2_1 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg4_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg3_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem4_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem2_1 : DmaSem sig := 56
abbrev cc6_sem3_0 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem2_1 : DmaSem sig := 65
abbrev cc7_sem3_0 : DmaSem sig := 66
abbrev cc7_sem4_0 : DmaSem sig := 67
abbrev cc7_sem4_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem2_1 : DmaSem sig := 74
abbrev cc8_sem3_0 : DmaSem sig := 75
abbrev cc8_sem4_0 : DmaSem sig := 76
abbrev cc8_sem4_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem3_1 : DmaSem sig := 83

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S2000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S40 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x40 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S8x64x64_S1x64x64_0_0_0 : S8x64x64.Slices ![0, 0, 0] S1x64x64
  shapeCasts_S1x64x64_S64x64 : S1x64x64.ShapeCasts S64x64
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S64x64 : S_.BroadcastsInDim S64x64 (![] : Fin 0 → Fin S64x64.rank)
  reducesTo_S64x64_S_d0_1 : S64x64.ReducesTo [0, 1] S_
  h_S_ : 0 < S_.numel
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S2000x256_S256x64_S2000x64_1_0_0_1_n_n_wf : DotDims.WF S2000x256 S256x64 S2000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x64_S2000x64_1_0_0_1_n_n_wf : DotDims.WF S2000x64 S64x64 S2000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S100000x64.size a
  hwx4_1 : ∀ i : grid4.Coords, EltTy.bits .f32 = 32 ∨ (Rect.block (s := S100000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S100000x64.size a
  hwx4_4 : ∀ i : grid4.Coords, EltTy.bits .f32 = 32 ∨ (Rect.block (s := S100000x64) S2000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S100000x64.size a
  hwx6_2 : ∀ i : grid6.Coords, EltTy.bits .f32 = 32 ∨ (Rect.block (s := S100000x64) S2000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S100000x64.size a
  hwx6_4 : ∀ i : grid6.Coords, EltTy.bits .f32 = 32 ∨ (Rect.block (s := S100000x64) S2000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S100000x64.size a
  hwx7_1 : ∀ i : grid7.Coords, EltTy.bits .f32 = 32 ∨ (Rect.block (s := S100000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S100000x64.size a
  hwx7_2 : ∀ i : grid7.Coords, EltTy.bits .f32 = 32 ∨ (Rect.block (s := S100000x64) S2000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S100000x64.size a
  hwx7_4 : ∀ i : grid7.Coords, EltTy.bits .f32 = 32 ∨ (Rect.block (s := S100000x64) S2000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x64.size a ≤ S100000x64.size a
  hwx8_1 : ∀ i : grid8.Coords, EltTy.bits .f32 = 32 ∨ (Rect.block (s := S100000x64) S2000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x64.size a ≤ S100000x64.size a
  hwx8_2 : ∀ i : grid8.Coords, EltTy.bits .f32 = 32 ∨ (Rect.block (s := S100000x64) S2000x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x64.size a ≤ S100000x64.size a
  hwx8_4 : ∀ i : grid8.Coords, EltTy.bits .f32 = 32 ∨ (Rect.block (s := S100000x64) S2000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S100000x64.size a
  hwx9_0 : ∀ i : grid9.Coords, EltTy.bits .f32 = 32 ∨ (Rect.block (s := S100000x64) S2000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x40.size a ≤ S64x40.size a
  hwx9_1 : ∀ i : grid9.Coords, EltTy.bits .f32 = 32 ∨ (Rect.block (s := S64x40) S64x40.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S40.size a ≤ S40.size a
  hwx9_2 : ∀ i : grid9.Coords, EltTy.bits .f32 = 32 ∨ (Rect.block (s := S40) S40.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x40.size a ≤ S100000x40.size a
  hwx9_3 : ∀ i : grid9.Coords, EltTy.bits .f32 = 32 ∨ (Rect.block (s := S100000x40) S2000x40.size (cc9_transform_3 i) (hinb9_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v63) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v79) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v95) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v97) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v111) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v113) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v114) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v127) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v114) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v34) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v129) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v130) S2000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v143) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v130) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v34) S2000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v145) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v146) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v159) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v146) S2000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v34) S2000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v161) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v162) S2000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v162) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg6) S64x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg7) S40.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v163) S2000x40.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x256 : Shape := ⟨2, ![100000, 256]⟩
abbrev S2x1200000 : Shape := ⟨2, ![2, 1200000]⟩
abbrev S1200000 : Shape := ⟨1, ![1200000]⟩
abbrev S256x64 : Shape := ⟨2, ![256, 64]⟩
abbrev S64 : Shape := ⟨1, ![64]⟩
abbrev S8x64x64 : Shape := ⟨3, ![8, 64, 64]⟩
abbrev S64x40 : Shape := ⟨2, ![64, 40]⟩
abbrev S40 : Shape := ⟨1, ![40]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S100000x64 : Shape := ⟨2, ![100000, 64]⟩
abbrev S1x64 : Shape := ⟨2, ![1, 64]⟩
abbrev S1200000x64 : Shape := ⟨2, ![1200000, 64]⟩
abbrev S1x64x64 : Shape := ⟨3, ![1, 64, 64]⟩
abbrev S64x64 : Shape := ⟨2, ![64, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 420
  | .vmem => 0
  | .smem => 0
  | _ => 0

abbrev hbmTy0_0 (i : Nat) : BufTy := match i % 128 with
  | 0 => ⟨S100000x256, .f32⟩
  | 1 => ⟨S2x1200000, .i32⟩
  | 2 => ⟨S1200000, .f32⟩
  | 3 => ⟨S256x64, .f32⟩
  | 4 => ⟨S64, .f32⟩
  | 5 => ⟨S8x64x64, .f32⟩
  | 6 => ⟨S64x40, .f32⟩
  | 7 => ⟨S40, .f32⟩
  | 8 => ⟨S1x1200000, .i32⟩
  | 9 => ⟨S1200000, .i32⟩
  | 10 => ⟨S1x1200000, .i32⟩
  | 11 => ⟨S1200000, .i32⟩
  | 12 => ⟨S1x1200000, .i32⟩
  | 13 => ⟨S1200000, .i32⟩
  | 14 => ⟨S1x1200000, .i32⟩
  | 15 => ⟨S1200000, .i32⟩
  | 16 => ⟨S_, .f32⟩
  | 17 => ⟨S100000, .f32⟩
  | 18 => ⟨S1200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000, .f32⟩
  | 44 => ⟨S1200000, .f32⟩
  | 45 => ⟨S_, .i32⟩
  | 46 => ⟨S1200000, .i32⟩
  | 47 => ⟨S1200000, .i1⟩
  | 48 => ⟨S_, .i32⟩
  | 49 => ⟨S1200000, .i32⟩
  | 50 => ⟨S1200000, .i32⟩
  | 51 => ⟨S1200000, .i32⟩
  | 52 => ⟨S1200000x1, .i32⟩
  | 53 => ⟨S1200000, .f32⟩
  | 54 => ⟨S1200000, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S1200000x1, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S1200000x64, .f32⟩
  | 72 => ⟨S1200000x64, .f32⟩
  | 73 => ⟨S1200000x64, .f32⟩
  | 74 => ⟨S_, .f32⟩
  | 75 => ⟨S100000x64, .f32⟩
  | 76 => ⟨S1200000x1, .i32⟩
  | 77 => ⟨S100000x64, .f32⟩
  | 78 => ⟨S_, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S1x64x64, .f32⟩
  | 90 => ⟨S64x64, .f32⟩
  | 91 => ⟨S100000x64, .f32⟩
  | 92 => ⟨S_, .f32⟩
  | 93 => ⟨S100000x64, .f32⟩
  | 94 => ⟨S100000x64, .f32⟩
  | 95 => ⟨S1200000x1, .f32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1200000x64, .f32⟩
  | 105 => ⟨S1200000x64, .f32⟩
  | 106 => ⟨S1200000x64, .f32⟩
  | 107 => ⟨S_, .f32⟩
  | 108 => ⟨S100000x64, .f32⟩
  | 109 => ⟨S1200000x1, .i32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S_, .f32⟩
  | 126 => ⟨S100000x64, .f32⟩
  | 127 => ⟨S100000x64, .f32⟩
  | _ => ⟨S100000x256, .f32⟩

abbrev hbmTy0_1 (i : Nat) : BufTy := match i % 128 with
  | 0 => ⟨S1200000x1, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000x64, .f32⟩
  | 10 => ⟨S1200000x64, .f32⟩
  | 11 => ⟨S1200000x64, .f32⟩
  | 12 => ⟨S_, .f32⟩
  | 13 => ⟨S100000x64, .f32⟩
  | 14 => ⟨S1200000x1, .i32⟩
  | 15 => ⟨S100000x64, .f32⟩
  | 16 => ⟨S_, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S1x64x64, .f32⟩
  | 28 => ⟨S64x64, .f32⟩
  | 29 => ⟨S100000x64, .f32⟩
  | 30 => ⟨S_, .f32⟩
  | 31 => ⟨S100000x64, .f32⟩
  | 32 => ⟨S100000x64, .f32⟩
  | 33 => ⟨S1200000x1, .f32⟩
  | 34 => ⟨S_, .i32⟩
  | 35 => ⟨S1200000, .i32⟩
  | 36 => ⟨S1200000, .i1⟩
  | 37 => ⟨S_, .i32⟩
  | 38 => ⟨S1200000, .i32⟩
  | 39 => ⟨S1200000, .i32⟩
  | 40 => ⟨S1200000, .i32⟩
  | 41 => ⟨S1200000x1, .i32⟩
  | 42 => ⟨S1200000x64, .f32⟩
  | 43 => ⟨S1200000x64, .f32⟩
  | 44 => ⟨S1200000x64, .f32⟩
  | 45 => ⟨S_, .f32⟩
  | 46 => ⟨S100000x64, .f32⟩
  | 47 => ⟨S1200000x1, .i32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S_, .f32⟩
  | 64 => ⟨S100000x64, .f32⟩
  | 65 => ⟨S100000x64, .f32⟩
  | 66 => ⟨S1200000x1, .f32⟩
  | 67 => ⟨S_, .i32⟩
  | 68 => ⟨S1200000, .i32⟩
  | 69 => ⟨S1200000, .i1⟩
  | 70 => ⟨S_, .i32⟩
  | 71 => ⟨S1200000, .i32⟩
  | 72 => ⟨S1200000, .i32⟩
  | 73 => ⟨S1200000, .i32⟩
  | 74 => ⟨S1200000x1, .i32⟩
  | 75 => ⟨S1200000x64, .f32⟩
  | 76 => ⟨S1200000x64, .f32⟩
  | 77 => ⟨S1200000x64, .f32⟩
  | 78 => ⟨S_, .f32⟩
  | 79 => ⟨S100000x64, .f32⟩
  | 80 => ⟨S1200000x1, .i32⟩
  | 81 => ⟨S100000x64, .f32⟩
  | 82 => ⟨S_, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S1x64x64, .f32⟩
  | 94 => ⟨S64x64, .f32⟩
  | 95 => ⟨S100000x64, .f32⟩
  | 96 => ⟨S_, .f32⟩
  | 97 => ⟨S100000x64, .f32⟩
  | 98 => ⟨S100000x64, .f32⟩
  | 99 => ⟨S1200000x1, .f32⟩
  | 100 => ⟨S_, .i32⟩
  | 101 => ⟨S1200000, .i32⟩
  | 102 => ⟨S1200000, .i1⟩
  | 103 => ⟨S_, .i32⟩
  | 104 => ⟨S1200000, .i32⟩
  | 105 => ⟨S1200000, .i32⟩
  | 106 => ⟨S1200000, .i32⟩
  | 107 => ⟨S1200000x1, .i32⟩
  | 108 => ⟨S1200000x64, .f32⟩
  | 109 => ⟨S1200000x64, .f32⟩
  | 110 => ⟨S1200000x64, .f32⟩
  | 111 => ⟨S_, .f32⟩
  | 112 => ⟨S100000x64, .f32⟩
  | 113 => ⟨S1200000x1, .i32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S1x64x64, .f32⟩
  | 127 => ⟨S64x64, .f32⟩
  | _ => ⟨S100000x256, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S1200000x1, .f32⟩
  | 5 => ⟨S_, .i32⟩
  | 6 => ⟨S1200000, .i32⟩
  | 7 => ⟨S1200000, .i1⟩
  | 8 => ⟨S_, .i32⟩
  | 9 => ⟨S1200000, .i32⟩
  | 10 => ⟨S1200000, .i32⟩
  | 11 => ⟨S1200000, .i32⟩
  | 12 => ⟨S1200000x1, .i32⟩
  | 13 => ⟨S1200000x64, .f32⟩
  | 14 => ⟨S1200000x64, .f32⟩
  | 15 => ⟨S1200000x64, .f32⟩
  | 16 => ⟨S_, .f32⟩
  | 17 => ⟨S100000x64, .f32⟩
  | 18 => ⟨S1200000x1, .i32⟩
  | 19 => ⟨S100000x64, .f32⟩
  | 20 => ⟨S_, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S_, .f32⟩
  | 35 => ⟨S100000x64, .f32⟩
  | 36 => ⟨S100000x64, .f32⟩
  | 37 => ⟨S1200000x1, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000x64, .f32⟩
  | 47 => ⟨S1200000x64, .f32⟩
  | 48 => ⟨S1200000x64, .f32⟩
  | 49 => ⟨S_, .f32⟩
  | 50 => ⟨S100000x64, .f32⟩
  | 51 => ⟨S1200000x1, .i32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S100000x64, .f32⟩
  | 64 => ⟨S1x64x64, .f32⟩
  | 65 => ⟨S64x64, .f32⟩
  | 66 => ⟨S100000x64, .f32⟩
  | 67 => ⟨S_, .f32⟩
  | 68 => ⟨S100000x64, .f32⟩
  | 69 => ⟨S100000x64, .f32⟩
  | 70 => ⟨S100000x40, .f32⟩
  | 71 => ⟨S1x40, .f32⟩
  | 72 => ⟨S100000x40, .f32⟩
  | 73 => ⟨S100000x40, .f32⟩
  | 74 => ⟨S_, .f32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x40, .f32⟩
  | 81 => ⟨S100000x40, .f32⟩
  | 82 => ⟨S100000x40, .f32⟩
  | 83 => ⟨S_, .f32⟩
  | 84 => ⟨S100000, .f32⟩
  | 85 => ⟨S100000x1, .f32⟩
  | 86 => ⟨S100000x1, .f32⟩
  | 87 => ⟨S100000x40, .f32⟩
  | 88 => ⟨S100000x40, .f32⟩
  | 89 => ⟨S64x64, .i32⟩
  | 90 => ⟨S64x64, .i32⟩
  | 91 => ⟨S_, .i32⟩
  | 92 => ⟨S64x64, .i32⟩
  | 93 => ⟨S64x64, .i32⟩
  | 94 => ⟨S64x64, .i1⟩
  | 95 => ⟨S64x64, .f32⟩
  | 96 => ⟨S1x64x64, .f32⟩
  | 97 => ⟨S64x64, .f32⟩
  | 98 => ⟨S_, .f32⟩
  | 99 => ⟨S64x64, .f32⟩
  | 100 => ⟨S64x64, .f32⟩
  | 101 => ⟨S64x64, .f32⟩
  | 102 => ⟨S64x64, .f32⟩
  | 103 => ⟨S_, .f32⟩
  | 104 => ⟨S_, .f32⟩
  | 105 => ⟨S_, .f32⟩
  | 106 => ⟨S1x64x64, .f32⟩
  | 107 => ⟨S64x64, .f32⟩
  | 108 => ⟨S64x64, .f32⟩
  | 109 => ⟨S64x64, .f32⟩
  | 110 => ⟨S_, .f32⟩
  | 111 => ⟨S_, .f32⟩
  | 112 => ⟨S_, .f32⟩
  | 113 => ⟨S_, .f32⟩
  | 114 => ⟨S1x64x64, .f32⟩
  | 115 => ⟨S64x64, .f32⟩
  | 116 => ⟨S64x64, .f32⟩
  | 117 => ⟨S64x64, .f32⟩
  | 118 => ⟨S_, .f32⟩
  | 119 => ⟨S_, .f32⟩
  | 120 => ⟨S_, .f32⟩
  | 121 => ⟨S_, .f32⟩
  | 122 => ⟨S1x64x64, .f32⟩
  | 123 => ⟨S64x64, .f32⟩
  | 124 => ⟨S64x64, .f32⟩
  | 125 => ⟨S64x64, .f32⟩
  | 126 => ⟨S_, .f32⟩
  | 127 => ⟨S_, .f32⟩
  | _ => ⟨S100000x256, .f32⟩

abbrev hbmTy0_3 (i : Nat) : BufTy := match i % 128 with
  | 0 => ⟨S_, .f32⟩
  | 1 => ⟨S_, .f32⟩
  | 2 => ⟨S1x64x64, .f32⟩
  | 3 => ⟨S64x64, .f32⟩
  | 4 => ⟨S64x64, .f32⟩
  | 5 => ⟨S64x64, .f32⟩
  | 6 => ⟨S_, .f32⟩
  | 7 => ⟨S_, .f32⟩
  | 8 => ⟨S_, .f32⟩
  | 9 => ⟨S_, .f32⟩
  | 10 => ⟨S1x64x64, .f32⟩
  | 11 => ⟨S64x64, .f32⟩
  | 12 => ⟨S64x64, .f32⟩
  | 13 => ⟨S64x64, .f32⟩
  | 14 => ⟨S_, .f32⟩
  | 15 => ⟨S_, .f32⟩
  | 16 => ⟨S_, .f32⟩
  | 17 => ⟨S_, .f32⟩
  | 18 => ⟨S1x64x64, .f32⟩
  | 19 => ⟨S64x64, .f32⟩
  | 20 => ⟨S64x64, .f32⟩
  | 21 => ⟨S64x64, .f32⟩
  | 22 => ⟨S_, .f32⟩
  | 23 => ⟨S_, .f32⟩
  | 24 => ⟨S_, .f32⟩
  | 25 => ⟨S_, .f32⟩
  | 26 => ⟨S1x64x64, .f32⟩
  | 27 => ⟨S64x64, .f32⟩
  | 28 => ⟨S64x64, .f32⟩
  | 29 => ⟨S64x64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_cst : Ref sig .tc := ⟨.hbm, 59, rfl⟩
abbrev main_call2_v0 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call3_cst : Ref sig .tc := ⟨.hbm, 92, rfl⟩
abbrev main_call3_v0 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_15 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_cst_17 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call4_cst : Ref sig .tc := ⟨.hbm, 125, rfl⟩
abbrev main_call4_v0 : Ref sig .tc := ⟨.hbm, 126, rfl⟩
abbrev main_v88 : Ref sig .tc := ⟨.hbm, 127, rfl⟩
abbrev main_v89 : Ref sig .tc := ⟨.hbm, 128, rfl⟩
abbrev main_c_19 : Ref sig .tc := ⟨.hbm, 129, rfl⟩
abbrev main_v90 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_22 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_call5_cst : Ref sig .tc := ⟨.hbm, 158, rfl⟩
abbrev main_call5_v0 : Ref sig .tc := ⟨.hbm, 159, rfl⟩
abbrev main_v113 : Ref sig .tc := ⟨.hbm, 160, rfl⟩
abbrev main_v114 : Ref sig .tc := ⟨.hbm, 161, rfl⟩
abbrev main_c_25 : Ref sig .tc := ⟨.hbm, 162, rfl⟩
abbrev main_v115 : Ref sig .tc := ⟨.hbm, 163, rfl⟩
abbrev main_v116 : Ref sig .tc := ⟨.hbm, 164, rfl⟩
abbrev main_c_26 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_27 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_28 : Ref sig .tc := ⟨.hbm, 177, rfl⟩
abbrev main_v127 : Ref sig .tc := ⟨.hbm, 178, rfl⟩
abbrev main_v128 : Ref sig .tc := ⟨.hbm, 179, rfl⟩
abbrev main_cst_29 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_cst_30 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_call6_cst : Ref sig .tc := ⟨.hbm, 191, rfl⟩
abbrev main_call6_v0 : Ref sig .tc := ⟨.hbm, 192, rfl⟩
abbrev main_v138 : Ref sig .tc := ⟨.hbm, 193, rfl⟩
abbrev main_v139 : Ref sig .tc := ⟨.hbm, 194, rfl⟩
abbrev main_c_31 : Ref sig .tc := ⟨.hbm, 195, rfl⟩
abbrev main_v140 : Ref sig .tc := ⟨.hbm, 196, rfl⟩
abbrev main_v141 : Ref sig .tc := ⟨.hbm, 197, rfl⟩
abbrev main_c_32 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_33 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_34 : Ref sig .tc := ⟨.hbm, 210, rfl⟩
abbrev main_v152 : Ref sig .tc := ⟨.hbm, 211, rfl⟩
abbrev main_v153 : Ref sig .tc := ⟨.hbm, 212, rfl⟩
abbrev main_cst_35 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_36 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_call7_cst : Ref sig .tc := ⟨.hbm, 224, rfl⟩
abbrev main_call7_v0 : Ref sig .tc := ⟨.hbm, 225, rfl⟩
abbrev main_v163 : Ref sig .tc := ⟨.hbm, 226, rfl⟩
abbrev main_v164 : Ref sig .tc := ⟨.hbm, 227, rfl⟩
abbrev main_c_37 : Ref sig .tc := ⟨.hbm, 228, rfl⟩
abbrev main_v165 : Ref sig .tc := ⟨.hbm, 229, rfl⟩
abbrev main_v166 : Ref sig .tc := ⟨.hbm, 230, rfl⟩
abbrev main_c_38 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_39 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_40 : Ref sig .tc := ⟨.hbm, 243, rfl⟩
abbrev main_v177 : Ref sig .tc := ⟨.hbm, 244, rfl⟩
abbrev main_v178 : Ref sig .tc := ⟨.hbm, 245, rfl⟩
abbrev main_cst_41 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_cst_42 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_call8_cst : Ref sig .tc := ⟨.hbm, 257, rfl⟩
abbrev main_call8_v0 : Ref sig .tc := ⟨.hbm, 258, rfl⟩
abbrev main_v188 : Ref sig .tc := ⟨.hbm, 259, rfl⟩
abbrev main_v189 : Ref sig .tc := ⟨.hbm, 260, rfl⟩
abbrev main_c_43 : Ref sig .tc := ⟨.hbm, 261, rfl⟩
abbrev main_v190 : Ref sig .tc := ⟨.hbm, 262, rfl⟩
abbrev main_v191 : Ref sig .tc := ⟨.hbm, 263, rfl⟩
abbrev main_c_44 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_cst_45 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_cst_46 : Ref sig .tc := ⟨.hbm, 276, rfl⟩
abbrev main_v202 : Ref sig .tc := ⟨.hbm, 277, rfl⟩
abbrev main_v203 : Ref sig .tc := ⟨.hbm, 278, rfl⟩
abbrev main_cst_47 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_cst_48 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_call9_cst : Ref sig .tc := ⟨.hbm, 290, rfl⟩
abbrev main_call9_v0 : Ref sig .tc := ⟨.hbm, 291, rfl⟩
abbrev main_v213 : Ref sig .tc := ⟨.hbm, 292, rfl⟩
abbrev main_v214 : Ref sig .tc := ⟨.hbm, 293, rfl⟩
abbrev main_c_49 : Ref sig .tc := ⟨.hbm, 294, rfl⟩
abbrev main_v215 : Ref sig .tc := ⟨.hbm, 295, rfl⟩
abbrev main_v216 : Ref sig .tc := ⟨.hbm, 296, rfl⟩
abbrev main_c_50 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_cst_51 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_cst_52 : Ref sig .tc := ⟨.hbm, 309, rfl⟩
abbrev main_v227 : Ref sig .tc := ⟨.hbm, 310, rfl⟩
abbrev main_v228 : Ref sig .tc := ⟨.hbm, 311, rfl⟩
abbrev main_cst_53 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_cst_54 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_call10_cst : Ref sig .tc := ⟨.hbm, 323, rfl⟩
abbrev main_call10_v0 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_call11_cst : Ref sig .tc := ⟨.hbm, 330, rfl⟩
abbrev main_call11_v0 : Ref sig .tc := ⟨.hbm, 331, rfl⟩
abbrev main_call11_cst_0 : Ref sig .tc := ⟨.hbm, 332, rfl⟩
abbrev main_call11_v1 : Ref sig .tc := ⟨.hbm, 333, rfl⟩
abbrev main_call11_v2 : Ref sig .tc := ⟨.hbm, 334, rfl⟩
abbrev main_call11_v3 : Ref sig .tc := ⟨.hbm, 335, rfl⟩
abbrev main_call11_v4 : Ref sig .tc := ⟨.hbm, 336, rfl⟩
abbrev main_call11_v5 : Ref sig .tc := ⟨.hbm, 337, rfl⟩
abbrev main_call11_v6 : Ref sig .tc := ⟨.hbm, 338, rfl⟩
abbrev main_call11_cst_1 : Ref sig .tc := ⟨.hbm, 339, rfl⟩
abbrev main_call11_v7 : Ref sig .tc := ⟨.hbm, 340, rfl⟩
abbrev main_call11_v8 : Ref sig .tc := ⟨.hbm, 341, rfl⟩
abbrev main_call11_v9 : Ref sig .tc := ⟨.hbm, 342, rfl⟩
abbrev main_call11_v10 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_c_55 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_cst_56 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_call12_v0 : Ref sig .tc := ⟨.hbm, 358, rfl⟩
abbrev main_call12_cst : Ref sig .tc := ⟨.hbm, 359, rfl⟩
abbrev main_call12_v1 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_call13_v0 : Ref sig .tc := ⟨.hbm, 365, rfl⟩
abbrev main_call13_cst : Ref sig .tc := ⟨.hbm, 366, rfl⟩
abbrev main_call13_v1 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_call14_v0 : Ref sig .tc := ⟨.hbm, 373, rfl⟩
abbrev main_call14_cst : Ref sig .tc := ⟨.hbm, 374, rfl⟩
abbrev main_call14_v1 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_v267 : Ref sig .tc := ⟨.hbm, 379, rfl⟩
abbrev main_v268 : Ref sig .tc := ⟨.hbm, 380, rfl⟩
abbrev main_call15_v0 : Ref sig .tc := ⟨.hbm, 381, rfl⟩
abbrev main_call15_cst : Ref sig .tc := ⟨.hbm, 382, rfl⟩
abbrev main_call15_v1 : Ref sig .tc := ⟨.hbm, 383, rfl⟩
abbrev main_v269 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_call16_v0 : Ref sig .tc := ⟨.hbm, 389, rfl⟩
abbrev main_call16_cst : Ref sig .tc := ⟨.hbm, 390, rfl⟩
abbrev main_call16_v1 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_v278 : Ref sig .tc := ⟨.hbm, 396, rfl⟩
abbrev main_call17_v0 : Ref sig .tc := ⟨.hbm, 397, rfl⟩
abbrev main_call17_cst : Ref sig .tc := ⟨.hbm, 398, rfl⟩
abbrev main_call17_v1 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_call18_v0 : Ref sig .tc := ⟨.hbm, 405, rfl⟩
abbrev main_call18_cst : Ref sig .tc := ⟨.hbm, 406, rfl⟩
abbrev main_call18_v1 : Ref sig .tc := ⟨.hbm, 407, rfl⟩
abbrev main_v284 : Ref sig .tc := ⟨.hbm, 408, rfl⟩
abbrev main_v285 : Ref sig .tc := ⟨.hbm, 409, rfl⟩
abbrev main_v286 : Ref sig .tc := ⟨.hbm, 410, rfl⟩
abbrev main_v287 : Ref sig .tc := ⟨.hbm, 411, rfl⟩
abbrev main_v288 : Ref sig .tc := ⟨.hbm, 412, rfl⟩
abbrev main_call19_v0 : Ref sig .tc := ⟨.hbm, 413, rfl⟩
abbrev main_call19_cst : Ref sig .tc := ⟨.hbm, 414, rfl⟩
abbrev main_call19_v1 : Ref sig .tc := ⟨.hbm, 415, rfl⟩
abbrev main_v289 : Ref sig .tc := ⟨.hbm, 416, rfl⟩
abbrev main_v290 : Ref sig .tc := ⟨.hbm, 417, rfl⟩
abbrev main_cst_57 : Ref sig .tc := ⟨.hbm, 418, rfl⟩
abbrev main_v291 : Ref sig .tc := ⟨.hbm, 419, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1200000x1_S1200000x64_0_1 : S1200000x1.BroadcastsInDim S1200000x64 (![0, 1] : Fin 2 → Fin S1200000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  bcast_S_S64x64 : S_.BroadcastsInDim S64x64 (![] : Fin 0 → Fin S64x64.rank)
  reducesTo_S64x64_S_d0_1 : S64x64.ReducesTo [0, 1] S_
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x256_S256x64_S100000x64_1_0_0_1_n_n_wf : DotDims.WF S100000x256 S256x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KbLayerBody.lean ====
import proofs.«135532_j46231027974388_1_alg».proof.Proof.Gen.Kernel.Launch
import proofs.«135532_j46231027974388_1_alg».proof.Proof.Gen.Kernel.Skeleton
import proofs.«135532_j46231027974388_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

abbrev rL_a : Rect S2000x64 := Rect.unit (s := S2000x64) ![0, 0] S2000x64.size inb_S2000x64_S2000x64_0_0
abbrev rL_w : Rect S64x64 := Rect.unit (s := S64x64) ![0, 0] S64x64.size inb_S64x64_S64x64_0_0

/-- The layer's value on four input blocks: the canonical form of one piece that covers the block. -/
def outL_4 (x0 x1 x2 : Vec F S2000x64 .f32) (x3 : Vec F S64x64 .f32) : Vec F S2000x64 .f32 :=
  View.canon [⟨rL_a, k2_pay1 (View.ld x0 rL_a) (View.ld x1 rL_a) (View.ld x2 rL_a) (View.ld x3 rL_w)⟩]

theorem before_input {cfg : Cfg sig Λ₀} {c : Dev nD} (dat : Dat τ (Elt F) Unit ℕ (UR sig nD τ) ℕ cfg c) (w : Fin cfg.W) (t : Fin cfg.N)
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (dat.after w t) = dat.blockOf w t := by exact fun _ => rfl) :
    ∀ d, dat.before w t d = dat.fetched w t d :=
  dat.before_in_eq_fetched w hw hlive hclip hkeep t

/-- One run of the layer body (`k`, any region's): inputs `x0 … x3` stay, the output becomes `outL_4` of them, `P` and `Q` pass through. -/
theorem sound_bodyL (c : Dev nD) {i : grid2.Coords}
    {k : grid2.Coords → (a1 : Memref sig .tc .vmem S2000x64 .f32) → a1.IsWhole → (a2 : Memref sig .tc .vmem S2000x64 .f32) → a2.IsWhole →
      (a3 : Memref sig .tc .vmem S2000x64 .f32) → a3.IsWhole → (a4 : Memref sig .tc .vmem S64x64 .f32) → a4.IsWhole →
      (a5 : Memref sig .tc .vmem S2000x64 .f32) → a5.IsWhole → Prog (TpuEff nD τ sig (Elt F) Λ₀ .tc) PUnit}
    {arg1 : Memref sig .tc .vmem S2000x64 .f32} {harg1 : arg1.IsWhole} {arg2 : Memref sig .tc .vmem S2000x64 .f32} {harg2 : arg2.IsWhole}
    {arg3 : Memref sig .tc .vmem S2000x64 .f32} {harg3 : arg3.IsWhole} {arg4 : Memref sig .tc .vmem S64x64 .f32} {harg4 : arg4.IsWhole}
    {arg5 : Memref sig .tc .vmem S2000x64 .f32} {harg5 : arg5.IsWhole} {D0 D1 D2 D3 D4 : Type}
    {b0 : D0 → Vec F S2000x64 .f32} {b1 : D1 → Vec F S2000x64 .f32} {b2 : D2 → Vec F S2000x64 .f32} {b3 : D3 → Vec F S64x64 .f32}
    {b4 : D4 → Vec F S2000x64 .f32} (x0 x1 x2 : Vec F S2000x64 .f32) (x3 : Vec F S64x64 .f32)
    (h0 : ∀ d, b0 d = x0) (h1 : ∀ d, b1 d = x1) (h2 : ∀ d, b2 d = x2) (h3 : ∀ d, b3 d = x3) {P Q : sProp 𝕄}
    (hk : k = cc2__layer_kernel := by rfl) :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)))
      ⊢ wp frame (wpE (defs₀ (F := F)) Variants.none c none) Set.univ
          (k i arg1 harg1 arg2 harg2 arg3 harg3 arg4 harg4 arg5 harg5) fun _ =>
          iprop(P ∗ Q ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outL_4 x0 x1 x2 x3)) := by
  subst hk
  simp only [h0, h1, h2, h3, owns_eq_rep, cc2__layer_kernel_eq_skeleton]; unfold cc2__layer_kernel_skel
  iintro ⟨HP, HQ, ⟨%_, H0⟩, ⟨%_, H1⟩, ⟨%_, H2⟩, ⟨%_, H3⟩, ⟨%_, H4⟩⟩
  sl_exec
  sl_step
  iframe
  iapply rep_of_owns; unfold owns; iexists _; iframe; ipureintro
  rw [View.read_writes_eq_canon _ _ _ (View.cover_of_tiled _ S2000x64.size rfl)]; simp only [View.readAt_rep]; rfl

end Cert.Kernel.Hand

end
-- ==== Proof.KbBody0.lean ====
import proofs.«135532_j46231027974388_1_alg».proof.Proof.KbLayerBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array (at its contents `V`) that grid point `t` addresses. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S2000x256 : Rect S2000x256 := Rect.unit (s := S2000x256) ![0, 0] S2000x256.size inb_S2000x256_S2000x256_0_0
abbrev r0_S256x64 : Rect S256x64 := Rect.unit (s := S256x64) ![0, 0] S256x64.size inb_S256x64_S256x64_0_0
abbrev r0_S64 : Rect S64 := Rect.unit (s := S64) ![0] S64.size inb_S64_S64_0
abbrev r0_S2000x64 : Rect S2000x64 := Rect.unit (s := S2000x64) ![0, 0] S2000x64.size inb_S2000x64_S2000x64_0_0

/-- The projection's value on three input blocks: the canonical form of one piece that covers the block. -/
def out0_3 (x0 : Vec F S2000x256 .f32) (x1 : Vec F S256x64 .f32) (x2 : Vec F S64 .f32) : Vec F S2000x64 .f32 :=
  View.canon [⟨r0_S2000x64, k0_pay1 (View.ld x0 r0_S2000x256) (View.ld x1 r0_S256x64) (View.ld x2 r0_S64)⟩]

/-- One run of the projection body: inputs `x0 x1 x2` stay, the output becomes `out0_3` of them, `P` and `Q` pass through. -/
theorem sound_body0 (c : Dev nD) {i : grid0.Coords}
    {arg1 : Memref sig .tc .vmem S2000x256 .f32} {harg1 : arg1.IsWhole} {arg2 : Memref sig .tc .vmem S256x64 .f32} {harg2 : arg2.IsWhole}
    {arg3 : Memref sig .tc .vmem S64 .f32} {harg3 : arg3.IsWhole} {arg4 : Memref sig .tc .vmem S2000x64 .f32} {harg4 : arg4.IsWhole}
    {D0 D1 D2 D3 : Type} {b0 : D0 → Vec F S2000x256 .f32} {b1 : D1 → Vec F S256x64 .f32} {b2 : D2 → Vec F S64 .f32} {b3 : D3 → Vec F S2000x64 .f32}
    (x0 : Vec F S2000x256 .f32) (x1 : Vec F S256x64 .f32) (x2 : Vec F S64 .f32)
    (h0 : ∀ d, b0 d = x0) (h1 : ∀ d, b1 d = x1) (h2 : ∀ d, b2 d = x2) {P Q : sProp 𝕄} :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ
          (cc0__proj_kernel i arg1 harg1 arg2 harg2 arg3 harg3 arg4 harg4) fun _ =>
          iprop(P ∗ Q ∗ owns (c : Thread nD τ) arg1 fullShare x0 ∗ owns (c : Thread nD τ) arg2 fullShare x1
            ∗ owns (c : Thread nD τ) arg3 fullShare x2 ∗ owns (c : Thread nD τ) arg4 fullShare (out0_3 x0 x1 x2)) := by
  simp only [h0, h1, h2, owns_eq_rep, cc0__proj_kernel_eq_skeleton]; unfold cc0__proj_kernel_skel
  iintro ⟨HP, HQ, ⟨%_, H0⟩, ⟨%_, H1⟩, ⟨%_, H2⟩, ⟨%_, H3⟩⟩
  sl_exec
  sl_step
  iframe
  iapply rep_of_owns; unfold owns; iexists _; iframe; ipureintro
  rw [View.read_writes_eq_canon _ _ _ (View.cover_of_tiled _ S2000x64.size rfl)]; simp only [View.readAt_rep]; rfl

/-- Each input's block stays and the output block becomes `out0_3` of the three input blocks. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  rw [bigSep_W0, bigSep_W0]; sl_whnfR [defs₀, Defs.onTc]; dsimp only [dat0]
  exact sound_body0 c (iblk0 V c 0 t) (iblk0 V c 1 t) (iblk0 V c 2 t) (before_input (dat0 V c) 0 t)
    (before_input (dat0 V c) 1 t) (before_input (dat0 V c) 2 t)

end Cert.Kernel.Hand

end
-- ==== Proof.KbBody1.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block stays and the output block becomes `outL_4` of the four input blocks. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outL_4 (iblk1 V c 0 t) (iblk1 V c 1 t) (iblk1 V c 2 t) (iblk1 V c 3 t)
  Φ _ := Pipeline.ΦA spec1 c
  q w := match w with | ⟨1, _⟩ => fullShare.left | ⟨2, _⟩ => fullShare.right | _ => fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = outL_4 (iblk1 V c 0 t) (iblk1 V c 1 t) (iblk1 V c 2 t) (iblk1 V c 3 t) := by dsimp only [dat1]

theorem body_obligation1 (c : Dev nD) : BodyObligation (dat1 (F := F) V c) (defs₀ (F := F)) Variants.none () Set.univ := fun t => by
  rw [bigSep_W1, bigSep_W1]; sl_whnfR [defs₀, Defs.onTc]; dsimp only [dat1]
  exact sound_bodyL c (iblk1 V c 0 t) (iblk1 V c 1 t) (iblk1 V c 2 t) (iblk1 V c 3 t) (before_input (dat1 V c) 0 t)
    (before_input (dat1 V c) 1 t) (before_input (dat1 V c) 2 t) (before_input (dat1 V c) 3 t)

end Cert.Kernel.Hand

end
-- ==== Proof.KbBody2.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's block stays and the output block becomes `outL_4` of the four input blocks. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outL_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = outL_4 (iblk2 V c 0 t) (iblk2 V c 1 t) (iblk2 V c 2 t) (iblk2 V c 3 t) := by dsimp only [dat2]

theorem body_obligation2 (c : Dev nD) : BodyObligation (dat2 (F := F) V c) (defs₀ (F := F)) Variants.none () Set.univ := fun t => by
  rw [bigSep_W2, bigSep_W2]; sl_whnfR [defs₀, Defs.onTc]; dsimp only [dat2]
  exact sound_bodyL c (iblk2 V c 0 t) (iblk2 V c 1 t) (iblk2 V c 2 t) (iblk2 V c 3 t) (before_input (dat2 V c) 0 t)
    (before_input (dat2 V c) 1 t) (before_input (dat2 V c) 2 t) (before_input (dat2 V c) 3 t)

end Cert.Kernel.Hand

end
-- ==== Proof.KbBody3.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's block stays and the output block becomes `outL_4` of the four input blocks. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outL_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = outL_4 (iblk3 V c 0 t) (iblk3 V c 1 t) (iblk3 V c 2 t) (iblk3 V c 3 t) := by dsimp only [dat3]

theorem body_obligation3 (c : Dev nD) : BodyObligation (dat3 (F := F) V c) (defs₀ (F := F)) Variants.none () Set.univ := fun t => by
  rw [bigSep_W3, bigSep_W3]; sl_whnfR [defs₀, Defs.onTc]; dsimp only [dat3]
  exact sound_bodyL c (iblk3 V c 0 t) (iblk3 V c 1 t) (iblk3 V c 2 t) (iblk3 V c 3 t) (before_input (dat3 V c) 0 t)
    (before_input (dat3 V c) 1 t) (before_input (dat3 V c) 2 t) (before_input (dat3 V c) 3 t)

end Cert.Kernel.Hand

end
-- ==== Proof.KbBody4.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's block stays and the output block becomes `outL_4` of the four input blocks. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outL_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = outL_4 (iblk4 V c 0 t) (iblk4 V c 1 t) (iblk4 V c 2 t) (iblk4 V c 3 t) := by dsimp only [dat4]

theorem body_obligation4 (c : Dev nD) : BodyObligation (dat4 (F := F) V c) (defs₀ (F := F)) Variants.none () Set.univ := fun t => by
  rw [bigSep_W4, bigSep_W4]; sl_whnfR [defs₀, Defs.onTc]; dsimp only [dat4]
  exact sound_bodyL c (iblk4 V c 0 t) (iblk4 V c 1 t) (iblk4 V c 2 t) (iblk4 V c 3 t) (before_input (dat4 V c) 0 t)
    (before_input (dat4 V c) 1 t) (before_input (dat4 V c) 2 t) (before_input (dat4 V c) 3 t)

end Cert.Kernel.Hand

end
-- ==== Proof.KbBody5.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input's block stays and the output block becomes `outL_4` of the four input blocks. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outL_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = outL_4 (iblk5 V c 0 t) (iblk5 V c 1 t) (iblk5 V c 2 t) (iblk5 V c 3 t) := by dsimp only [dat5]

theorem body_obligation5 (c : Dev nD) : BodyObligation (dat5 (F := F) V c) (defs₀ (F := F)) Variants.none () Set.univ := fun t => by
  rw [bigSep_W5, bigSep_W5]; sl_whnfR [defs₀, Defs.onTc]; dsimp only [dat5]
  exact sound_bodyL c (iblk5 V c 0 t) (iblk5 V c 1 t) (iblk5 V c 2 t) (iblk5 V c 3 t) (before_input (dat5 V c) 0 t)
    (before_input (dat5 V c) 1 t) (before_input (dat5 V c) 2 t) (before_input (dat5 V c) 3 t)

end Cert.Kernel.Hand

end
-- ==== Proof.KbBody6.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input's block stays and the output block becomes `outL_4` of the four input blocks. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => outL_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = outL_4 (iblk6 V c 0 t) (iblk6 V c 1 t) (iblk6 V c 2 t) (iblk6 V c 3 t) := by dsimp only [dat6]

theorem body_obligation6 (c : Dev nD) : BodyObligation (dat6 (F := F) V c) (defs₀ (F := F)) Variants.none () Set.univ := fun t => by
  rw [bigSep_W6, bigSep_W6]; sl_whnfR [defs₀, Defs.onTc]; dsimp only [dat6]
  exact sound_bodyL c (iblk6 V c 0 t) (iblk6 V c 1 t) (iblk6 V c 2 t) (iblk6 V c 3 t) (before_input (dat6 V c) 0 t)
    (before_input (dat6 V c) 1 t) (before_input (dat6 V c) 2 t) (before_input (dat6 V c) 3 t)

end Cert.Kernel.Hand

end
-- ==== Proof.KbBody7.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input's block stays and the output block becomes `outL_4` of the four input blocks. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => outL_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_4 (c : Dev nD) (t : Fin cfg7.N) :
    (dat7 V c).after 4 t = outL_4 (iblk7 V c 0 t) (iblk7 V c 1 t) (iblk7 V c 2 t) (iblk7 V c 3 t) := by dsimp only [dat7]

theorem body_obligation7 (c : Dev nD) : BodyObligation (dat7 (F := F) V c) (defs₀ (F := F)) Variants.none () Set.univ := fun t => by
  rw [bigSep_W7, bigSep_W7]; sl_whnfR [defs₀, Defs.onTc]; dsimp only [dat7]
  exact sound_bodyL c (iblk7 V c 0 t) (iblk7 V c 1 t) (iblk7 V c 2 t) (iblk7 V c 3 t) (before_input (dat7 V c) 0 t)
    (before_input (dat7 V c) 1 t) (before_input (dat7 V c) 2 t) (before_input (dat7 V c) 3 t)

end Cert.Kernel.Hand

end
-- ==== Proof.KbBody8.lean ====
import proofs.«135532_j46231027974388_1_alg».proof.Proof.KbLayerBody

noncomputable section

namespace Cert.Kernel.Hand

open Cert.Kernel Cert.Kernel.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input's block stays and the output block becomes `outL_4` of the four input blocks. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => outL_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := rfl

theorem after8_4 (c : Dev nD) (t : Fin cfg8.N) :
    (dat8 V c).after 4 t = outL_4 (iblk8 V c 0 t) (iblk8 V c 1 t) (iblk8 V c 2 t) (iblk8 V c 3 t) := by dsimp only [dat8]

theorem body_obligation8 (c : Dev nD) : BodyObligation (dat8 (F := F) V c) (defs₀ (F := F)) Variants.none () Set.univ := fun t => by
  rw [bigSep_W8, bigSep_W8]; sl_whnfR [defs₀, Defs.onTc]; dsimp only [dat8]
  exact sound_bodyL c (iblk8 V c 0 t) (iblk8 V c 1 t) (iblk8 V c 2 t) (iblk8 V c 3 t) (before_input (dat8 V c) 0 t)
    (before_input (dat8 V c) 1 t) (before_input (dat8 V c) 2 t) (before_input (dat8 V c) 3 t)

end Cert.Kernel.Hand

end
-- ==== Proof.KbBody9.lean ====
import proofs.«135532_j46231027974388_1_alg».proof.Proof.KbLayerBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array (at its contents `V`) that grid point `t` addresses. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_S2000x64 : Rect S2000x64 := Rect.unit (s := S2000x64) ![0, 0] S2000x64.size inb_S2000x64_S2000x64_0_0
abbrev r9_S64x40 : Rect S64x40 := Rect.unit (s := S64x40) ![0, 0] S64x40.size inb_S64x40_S64x40_0_0
abbrev r9_S40 : Rect S40 := Rect.unit (s := S40) ![0] S40.size inb_S40_S40_0
abbrev r9_S2000x40 : Rect S2000x40 := Rect.unit (s := S2000x40) ![0, 0] S2000x40.size inb_S2000x40_S2000x40_0_0

/-- The head's value on three input blocks: the canonical form of one piece that covers the block. -/
def out9_3 (x0 : Vec F S2000x64 .f32) (x1 : Vec F S64x40 .f32) (x2 : Vec F S40 .f32) : Vec F S2000x40 .f32 :=
  View.canon [⟨r9_S2000x40, k9_pay1 (View.ld x0 r9_S2000x64) (View.ld x1 r9_S64x40) (View.ld x2 r9_S40)⟩]

/-- One run of the head body: inputs `x0 x1 x2` stay, the output becomes `out9_3` of them, `P` and `Q` pass through. -/
theorem sound_body9 (c : Dev nD) {i : grid9.Coords}
    {arg1 : Memref sig .tc .vmem S2000x64 .f32} {harg1 : arg1.IsWhole} {arg2 : Memref sig .tc .vmem S64x40 .f32} {harg2 : arg2.IsWhole}
    {arg3 : Memref sig .tc .vmem S40 .f32} {harg3 : arg3.IsWhole} {arg4 : Memref sig .tc .vmem S2000x40 .f32} {harg4 : arg4.IsWhole}
    {D0 D1 D2 D3 : Type} {b0 : D0 → Vec F S2000x64 .f32} {b1 : D1 → Vec F S64x40 .f32} {b2 : D2 → Vec F S40 .f32} {b3 : D3 → Vec F S2000x40 .f32}
    (x0 : Vec F S2000x64 .f32) (x1 : Vec F S64x40 .f32) (x2 : Vec F S40 .f32)
    (h0 : ∀ d, b0 d = x0) (h1 : ∀ d, b1 d = x1) (h2 : ∀ d, b2 d = x2) {P Q : sProp 𝕄} :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ
          (cc9__logits_kernel i arg1 harg1 arg2 harg2 arg3 harg3 arg4 harg4) fun _ =>
          iprop(P ∗ Q ∗ owns (c : Thread nD τ) arg1 fullShare x0 ∗ owns (c : Thread nD τ) arg2 fullShare x1
            ∗ owns (c : Thread nD τ) arg3 fullShare x2 ∗ owns (c : Thread nD τ) arg4 fullShare (out9_3 x0 x1 x2)) := by
  simp only [h0, h1, h2, owns_eq_rep, cc9__logits_kernel_eq_skeleton]; unfold cc9__logits_kernel_skel
  iintro ⟨HP, HQ, ⟨%_, H0⟩, ⟨%_, H1⟩, ⟨%_, H2⟩, ⟨%_, H3⟩⟩
  sl_exec
  sl_step
  iframe
  iapply rep_of_owns; unfold owns; iexists _; iframe; ipureintro
  rw [View.read_writes_eq_canon _ _ _ (View.cover_of_tiled _ S2000x40.size rfl)]; simp only [View.readAt_rep]; rfl

/-- Each input's block stays and the output block becomes `out9_3` of the three input blocks. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := rfl

theorem after9_3 (c : Dev nD) (t : Fin cfg9.N) :
    (dat9 V c).after 3 t = out9_3 (iblk9 V c 0 t) (iblk9 V c 1 t) (iblk9 V c 2 t) := by dsimp only [dat9]

theorem body_obligation9 (c : Dev nD) : BodyObligation (dat9 (F := F) V c) (defs₀ (F := F)) Variants.none () Set.univ := fun t => by
  rw [bigSep_W9, bigSep_W9]; sl_whnfR [defs₀, Defs.onTc]; dsimp only [dat9]
  exact sound_body9 c (iblk9 V c 0 t) (iblk9 V c 1 t) (iblk9 V c 2 t) (before_input (dat9 V c) 0 t)
    (before_input (dat9 V c) 1 t) (before_input (dat9 V c) 2 t)

end Cert.Kernel.Hand

end
-- ==== Proof.KbFold.lean ====
import proofs.«135532_j46231027974388_1_alg».proof.Proof.RegionsK
import proofs.«135532_j46231027974388_1_alg».proof.Proof.KbBody0
import proofs.«135532_j46231027974388_1_alg».proof.Proof.KbBody1
import proofs.«135532_j46231027974388_1_alg».proof.Proof.KbBody2
import proofs.«135532_j46231027974388_1_alg».proof.Proof.KbBody3
import proofs.«135532_j46231027974388_1_alg».proof.Proof.KbBody4
import proofs.«135532_j46231027974388_1_alg».proof.Proof.KbBody5
import proofs.«135532_j46231027974388_1_alg».proof.Proof.KbBody6
import proofs.«135532_j46231027974388_1_alg».proof.Proof.KbBody7
import proofs.«135532_j46231027974388_1_alg».proof.Proof.KbBody8
import proofs.«135532_j46231027974388_1_alg».proof.Proof.KbBody9

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev tcv (W : Dev nD → Valuation τ sig (Elt F)) : (c : Dev nD) → (b : Ref sig .tc) → Buf (Elt F) ((c : Thread nD τ).loc b) :=
  fun c b => W c b

def W5 : Dev nD → Valuation τ sig (Elt F) := fun c => V5 m c

def res0 (c : Dev nD) : Buf (Elt F) ((c : Thread nD τ).loc main_v34) := (dat0 (tcv (W5 m)) c).arrAt 3 cfg0.N

def W6 : Dev nD → Valuation τ sig (Elt F) := fun c => Function.update (W5 m c) main_v34 (res0 m c)

def W7 : Dev nD → Valuation τ sig (Elt F) := fun c => StableHlo.after hostOps1 (W6 m c)

def res1 (c : Dev nD) : Buf (Elt F) ((c : Thread nD τ).loc main_v50) := (dat1 (tcv (W7 m)) c).arrAt 4 cfg1.N

def W8 : Dev nD → Valuation τ sig (Elt F) := fun c => Function.update (W7 m c) main_v50 (res1 m c)

def W9 : Dev nD → Valuation τ sig (Elt F) := fun c => StableHlo.after hostOps2 (W8 m c)

def res2 (c : Dev nD) : Buf (Elt F) ((c : Thread nD τ).loc main_v66) := (dat2 (tcv (W9 m)) c).arrAt 4 cfg2.N

def W10 : Dev nD → Valuation τ sig (Elt F) := fun c => Function.update (W9 m c) main_v66 (res2 m c)

def W11 : Dev nD → Valuation τ sig (Elt F) := fun c => StableHlo.after hostOps3 (W10 m c)

def res3 (c : Dev nD) : Buf (Elt F) ((c : Thread nD τ).loc main_v82) := (dat3 (tcv (W11 m)) c).arrAt 4 cfg3.N

def W12 : Dev nD → Valuation τ sig (Elt F) := fun c => Function.update (W11 m c) main_v82 (res3 m c)

def W13 : Dev nD → Valuation τ sig (Elt F) := fun c => StableHlo.after hostOps4 (W12 m c)

def res4 (c : Dev nD) : Buf (Elt F) ((c : Thread nD τ).loc main_v98) := (dat4 (tcv (W13 m)) c).arrAt 4 cfg4.N

def W14 : Dev nD → Valuation τ sig (Elt F) := fun c => Function.update (W13 m c) main_v98 (res4 m c)

def W15 : Dev nD → Valuation τ sig (Elt F) := fun c => StableHlo.after hostOps5 (W14 m c)

def res5 (c : Dev nD) : Buf (Elt F) ((c : Thread nD τ).loc main_v114) := (dat5 (tcv (W15 m)) c).arrAt 4 cfg5.N

def W16 : Dev nD → Valuation τ sig (Elt F) := fun c => Function.update (W15 m c) main_v114 (res5 m c)

def W17 : Dev nD → Valuation τ sig (Elt F) := fun c => StableHlo.after hostOps6 (W16 m c)

def res6 (c : Dev nD) : Buf (Elt F) ((c : Thread nD τ).loc main_v130) := (dat6 (tcv (W17 m)) c).arrAt 4 cfg6.N

def W18 : Dev nD → Valuation τ sig (Elt F) := fun c => Function.update (W17 m c) main_v130 (res6 m c)

def W19 : Dev nD → Valuation τ sig (Elt F) := fun c => StableHlo.after hostOps7 (W18 m c)

def res7 (c : Dev nD) : Buf (Elt F) ((c : Thread nD τ).loc main_v146) := (dat7 (tcv (W19 m)) c).arrAt 4 cfg7.N

def W20 : Dev nD → Valuation τ sig (Elt F) := fun c => Function.update (W19 m c) main_v146 (res7 m c)

def W21 : Dev nD → Valuation τ sig (Elt F) := fun c => StableHlo.after hostOps8 (W20 m c)

def res8 (c : Dev nD) : Buf (Elt F) ((c : Thread nD τ).loc main_v162) := (dat8 (tcv (W21 m)) c).arrAt 4 cfg8.N

def W22 : Dev nD → Valuation τ sig (Elt F) := fun c => Function.update (W21 m c) main_v162 (res8 m c)

def res9 (c : Dev nD) : Buf (Elt F) ((c : Thread nD τ).loc main_v163) := (dat9 (tcv (W22 m)) c).arrAt 3 cfg9.N

def W23 : Dev nD → Valuation τ sig (Elt F) := fun c => Function.update (W22 m c) main_v163 (res9 m c)

def outs : Outs (F := F) := fun J r c => match J with
  | 6 => W6 m c r
  | 8 => W8 m c r
  | 10 => W10 m c r
  | 12 => W12 m c r
  | 14 => W14 m c r
  | 16 => W16 m c r
  | 18 => W18 m c r
  | 20 => W20 m c r
  | 22 => W22 m c r
  | 23 => W23 m c r
  | _ => W5 m c r

theorem upd_eq {V W : Valuation τ sig (Elt F)} (h : V = W) (o : Ref sig .tc)
    (x : (Proc.devRef (τ := τ) .tc o : DevRef τ sig).ty.Contents (Elt F)) :
    Function.update V (Proc.devRef .tc o) (Function.update W (Proc.devRef .tc o) x (Proc.devRef .tc o)) = Function.update W (Proc.devRef .tc o) x := by
  rw [h, Function.update_self]

theorem V5_eq (c : Dev nD) : V5 m c = W5 m c := rfl
theorem V6_eq (c : Dev nD) : V6 m (outs m) c = W6 m c := upd_eq (V5_eq m c) main_v34 (res0 m c)
theorem V7_eq (c : Dev nD) : V7 m (outs m) c = W7 m c := congrArg (StableHlo.after hostOps1) (V6_eq m c)
theorem V8_eq (c : Dev nD) : V8 m (outs m) c = W8 m c := upd_eq (V7_eq m c) main_v50 (res1 m c)
theorem V9_eq (c : Dev nD) : V9 m (outs m) c = W9 m c := congrArg (StableHlo.after hostOps2) (V8_eq m c)
theorem V10_eq (c : Dev nD) : V10 m (outs m) c = W10 m c := upd_eq (V9_eq m c) main_v66 (res2 m c)
theorem V11_eq (c : Dev nD) : V11 m (outs m) c = W11 m c := congrArg (StableHlo.after hostOps3) (V10_eq m c)
theorem V12_eq (c : Dev nD) : V12 m (outs m) c = W12 m c := upd_eq (V11_eq m c) main_v82 (res3 m c)
theorem V13_eq (c : Dev nD) : V13 m (outs m) c = W13 m c := congrArg (StableHlo.after hostOps4) (V12_eq m c)
theorem V14_eq (c : Dev nD) : V14 m (outs m) c = W14 m c := upd_eq (V13_eq m c) main_v98 (res4 m c)
theorem V15_eq (c : Dev nD) : V15 m (outs m) c = W15 m c := congrArg (StableHlo.after hostOps5) (V14_eq m c)
theorem V16_eq (c : Dev nD) : V16 m (outs m) c = W16 m c := upd_eq (V15_eq m c) main_v114 (res5 m c)
theorem V17_eq (c : Dev nD) : V17 m (outs m) c = W17 m c := congrArg (StableHlo.after hostOps6) (V16_eq m c)
theorem V18_eq (c : Dev nD) : V18 m (outs m) c = W18 m c := upd_eq (V17_eq m c) main_v130 (res6 m c)
theorem V19_eq (c : Dev nD) : V19 m (outs m) c = W19 m c := congrArg (StableHlo.after hostOps7) (V18_eq m c)
theorem V20_eq (c : Dev nD) : V20 m (outs m) c = W20 m c := upd_eq (V19_eq m c) main_v146 (res7 m c)
theorem V21_eq (c : Dev nD) : V21 m (outs m) c = W21 m c := congrArg (StableHlo.after hostOps8) (V20_eq m c)
theorem V22_eq (c : Dev nD) : V22 m (outs m) c = W22 m c := upd_eq (V21_eq m c) main_v162 (res8 m c)
theorem V23_eq (c : Dev nD) : V23 m (outs m) c = W23 m c := upd_eq (V22_eq m c) main_v163 (res9 m c)

def pdats : (p : Fin 10) → (c : Dev nD) → Dat τ (Elt F) Unit ℕ (UR sig nD τ) ℕ (cfgs p) c
  | ⟨0, _⟩ => fun c => dat0 (tcv (W5 m)) c
  | ⟨1, _⟩ => fun c => dat1 (tcv (W7 m)) c
  | ⟨2, _⟩ => fun c => dat2 (tcv (W9 m)) c
  | ⟨3, _⟩ => fun c => dat3 (tcv (W11 m)) c
  | ⟨4, _⟩ => fun c => dat4 (tcv (W13 m)) c
  | ⟨5, _⟩ => fun c => dat5 (tcv (W15 m)) c
  | ⟨6, _⟩ => fun c => dat6 (tcv (W17 m)) c
  | ⟨7, _⟩ => fun c => dat7 (tcv (W19 m)) c
  | ⟨8, _⟩ => fun c => dat8 (tcv (W21 m)) c
  | ⟨9, _⟩ => fun c => dat9 (tcv (W22 m)) c

end Cert.Kernel.Hand

end
-- ==== Proof.KbRegC.lean ====
import proofs.«135532_j46231027974388_1_alg».proof.Proof.KbFold
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
/-- What every segment carries beside the buffers. -/
abbrev R (c : Dev nD) : sProp 𝕄 := iprop((∃ r, prngReg c r) ∗ ∃ W, owes (c : Thread nD τ) (0 : CellTallies nD τ sig Unit) W)
abbrev E : Fin 11 → Dev nD → sProp 𝕄 := fun _ c => R (F := F) c

theorem upd_ne (W : Valuation τ sig (Elt F)) (o b : Ref sig .tc) (x) (h : b ≠ o) :
    Function.update W (Proc.devRef .tc o) x (Proc.devRef .tc b) = W (Proc.devRef .tc b) :=
  Function.update_of_ne (StableHlo.devRef_ne_of_ne h) _ _

set_option backward.isDefEq.respectTransparency.types false in
/-- A kernel region as a segment of the run: entered from one contents of the buffers, left at another. -/
def regOf (p : Fin 10) (i j : Fin 11) (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m p c) (defs₀ (F := F)) 𝒱₀ () Set.univ)
    (Vin Vout Win Wout : Dev nD → Valuation τ sig (Elt F)) (hVin : ∀ c, Vin c = Win c) (hVout : ∀ c, Vout c = Wout c)
    (howed : ∀ c t, (pdats m p c).owed t = 0) (hrec : ∀ c t, (pdats m p c).recorded t = Set.univ)
    (hΦ0 : ∀ c, (pdats m p c).Φ 0 = Pipeline.ΦA (pcfgs (F := F) p).spec c)
    (hΦN : ∀ c, (pdats m p c).Φ (Fin.last _) = Pipeline.ΦA (pcfgs (F := F) p).spec c)
    (hsplit : ∀ c, (unscopedBufs c (tcv Win c) : sProp 𝕄)
      ⊢ iprop((pdats m p c).arrays ((pdats m p c).arrAt · 0) ∗ Pipeline.unscopedRest (pcfgs (F := F) p).spec c (tcv Win c)))
    (hjoin : ∀ c, iprop((pdats m p c).arrays ((pdats m p c).arrAt · (cfgs p).N) ∗ Pipeline.unscopedRest (pcfgs (F := F) p).spec c (tcv Win c))
      ⊢ (unscopedBufs c (tcv Wout c) : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ E i c)
  post c := iprop(StableHlo.held (c : Thread nD τ) (Pipeline.ucRefs τ sig) (Vout c) ∗ E j c)
  X c := iprop(∃ r, prngReg c r)
  Y c := iprop(∃ r, prngReg c r)
  Z c := Pipeline.unscopedRest (Ix := Unit) (Name := ℕ) (U := UR sig nD τ) (Lvl := ℕ) (pcfgs (F := F) p).spec c (tcv Win c)
  hentry c := by
    rw [Pipeline.ownSems0_none, hVin]
    have hsplit := hsplit c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    rw [hΦ0]; unfold Pipeline.ΦA
    iintro ⟨Hp, -, Hr⟩
    isplitl [Hr]; · iexact Hr
    iexact Hp
  hout c := by
    rw [Pipeline.ownSems0_none, hΦN]; unfold Pipeline.ΦA
    iintro ⟨Hr, Hp⟩
    isplitl [Hp]; · iexact Hp
    isplitr; · iempintro
    iexact Hr
  hexit c := by
    rw [hVout]; unfold Pipeline.Dat.owesAt Pipeline.owesWithin; rw [howed c]
    have hjoin := hjoin c
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-- The same when the region's arrays are distinct buffers. -/
def regL (p : Fin 10) (i j : Fin 11) (launch : Pipeline.LaunchFacts (nD := nD) (τ := τ) cfgs p) (hbody : ∀ c, Pipeline.BodyObligationLoose (pdats m p c) (defs₀ (F := F)) 𝒱₀ () Set.univ)
    (Vin Vout Win Wout : Dev nD → Valuation τ sig (Elt F)) (hVin : ∀ c, Vin c = Win c) (hVout : ∀ c, Vout c = Wout c)
    (howed : ∀ c t, (pdats m p c).owed t = 0) (hrec : ∀ c t, (pdats m p c).recorded t = Set.univ)
    (hΦ0 : ∀ c, (pdats m p c).Φ 0 = Pipeline.ΦA (pcfgs (F := F) p).spec c)
    (hΦN : ∀ c, (pdats m p c).Φ (Fin.last _) = Pipeline.ΦA (pcfgs (F := F) p).spec c)
    (hq : ∀ c w, (pdats m p c).q w = fullShare)
    (hA : ∀ c w, (pdats m p c).A w = tcv Win c (Pipeline.arrRef (pcfgs (F := F) p).spec w))
    (hF : ∀ c w, (pdats m p c).arrAt w (cfgs p).N = tcv Wout c (Pipeline.arrRef (pcfgs (F := F) p).spec w))
    (hrest : ∀ c b, b ∉ Finset.univ.image (Pipeline.arrRef (pcfgs (F := F) p).spec) → tcv Wout c b = tcv Win c b) :
    Pipeline.RegionSeg (pcfgs (F := F)) adm (pdats m) () defs₀ 𝒱₀ L lv p :=
  regOf m p i j launch.win.to₀ launch.block_pos launch.stage_whole hbody Vin Vout Win Wout hVin hVout howed hrec hΦ0 hΦN
    (fun c => Pipeline.arrays_of_unscopedBufs (p := p) (pcfgs (F := F)) adm (pdats m) launch.win launch.arr_whole c
      ((pdats m p c).share_full (hq c)) (tcv Win c) (hA c))
    (fun c => Pipeline.unscopedBufs_of_arrays (p := p) (pcfgs (F := F)) adm (Ix := Unit) (Name := ℕ) (U := UR sig nD τ) (Lvl := ℕ)
      launch.win launch.arr_whole c (pdats m) ((pdats m p c).share_full (hq c))
      (tcv Win c) (tcv Wout c) ((pdats m p c).arrAt · (cfgs p).N) (hF c) (hrest c))

/-- A region's arrays at its exit: an input array as entered, the output array as the region leaves it. -/
theorem hF_of {cfg : Pipeline.Cfg sig Λ₀} {c : Dev nD} (dat : Dat τ (Elt F) Unit ℕ (UR sig nD τ) ℕ cfg c)
    (Wi : Valuation τ sig (Elt F)) (wo : Fin cfg.W) (o : Ref sig .tc) (x)
    (hin : ∀ w, w ≠ wo → (cfg.win w).isOut = false) (hne : ∀ w, w ≠ wo → Pipeline.arrRef cfg.spec w ≠ o)
    (hA : ∀ w, dat.A w = Wi (Pipeline.arrRef cfg.spec w))
    (ho : Pipeline.arrRef cfg.spec wo = o) (hx : HEq (dat.arrAt wo cfg.N) x) (w : Fin cfg.W) :
    dat.arrAt w cfg.N = Function.update Wi (Proc.devRef .tc o) x (Pipeline.arrRef cfg.spec w) := by
  subst ho
  by_cases hw : w = wo
  · subst hw; exact (eq_of_heq hx).trans (Function.update_self (β := fun b : DevRef τ sig => b.ty.Contents (Elt F)) _ x Wi).symm
  · rw [dat.arrAt_in w (hin w hw) _, hA]
    exact (upd_ne Wi _ _ _ (hne w hw)).symm

/-- Off the region's arrays nothing changes. -/
theorem hrest_of {cfg : Pipeline.Cfg sig Λ₀} (Wi : Valuation τ sig (Elt F)) (wo : Fin cfg.W) (o : Ref sig .tc) (x)
    (ho : Pipeline.arrRef cfg.spec wo = o) (b : Ref sig .tc) (hb : b ∉ Finset.univ.image (Pipeline.arrRef cfg.spec)) :
    Function.update Wi (Proc.devRef .tc o) x b = Wi b :=
  upd_ne Wi o b _ fun e => hb (Finset.mem_image.mpr ⟨wo, Finset.mem_univ _, ho.trans e.symm⟩)

end Cert.Kernel.Hand

end
-- ==== Proof.KbShare1.lean ====
import proofs.«135532_j46231027974388_1_alg».proof.Proof.KbBody1
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem image_arrRef1 : Finset.univ.image (Pipeline.arrRef spec1) = [main_v47, main_v34, main_v49, main_v50].toFinset := by decide

theorem arrRef1_0 : Pipeline.arrRef spec1 0 = main_v47 := rfl
theorem arrRef1_1 : Pipeline.arrRef spec1 1 = main_v34 := rfl
theorem arrRef1_2 : Pipeline.arrRef spec1 2 = main_v34 := rfl
theorem arrRef1_3 : Pipeline.arrRef spec1 3 = main_v49 := rfl
theorem arrRef1_4 : Pipeline.arrRef spec1 4 = main_v50 := rfl

theorem isOut1_0 : (cfg1.win 0).isOut = false := rfl
theorem isOut1_1 : (cfg1.win 1).isOut = false := rfl
theorem isOut1_2 : (cfg1.win 2).isOut = false := rfl
theorem isOut1_3 : (cfg1.win 3).isOut = false := rfl
theorem isOut1_4 : (cfg1.win 4).isOut = true := rfl

theorem share1_in (c : Dev nD) (dat : Dat τ (Elt F) Unit ℕ (UR sig nD τ) ℕ cfg1 c) (w : Fin cfg1.W) (h : (cfg1.win w).isOut = false) :
    dat.share w = dat.q w := by
  unfold Dat.share; rw [h]; rfl

theorem share1_out (c : Dev nD) (dat : Dat τ (Elt F) Unit ℕ (UR sig nD τ) ℕ cfg1 c) (w : Fin cfg1.W) (h : (cfg1.win w).isOut = true) :
    dat.share w = fullShare := by
  unfold Dat.share; rw [h]; rfl

theorem sep_eq1 {M : Type} [URA M] {P P' Q Q' : sProp M} (h1 : P = P') (h2 : Q = Q') : iprop(P ∗ Q) = iprop(P' ∗ Q') := by rw [h1, h2]

theorem bigSep_W1' {M : Type} [URA M] (Φ : Fin cfg1.W → sProp M) :
    bigSep Finset.univ Φ = iprop(Φ 0 ∗ Φ 1 ∗ Φ 2 ∗ Φ 3 ∗ Φ 4) := bigSep_W1 Φ

theorem arrays1_comp (c : Dev nD) (dat : Dat τ (Elt F) Unit ℕ (UR sig nD τ) ℕ cfg1 c)
    (Fn : (w : Fin cfg1.W) → Buf (Elt F) ((cfg1.win w).arr.view.loc (c : Thread nD τ)))
    (V : (b : Ref sig .tc) → Buf (Elt F) ((c : Thread nD τ).loc b)) (hF : ∀ w, Fn w = V (Pipeline.arrRef spec1 w))
    (w : Fin cfg1.W) (q : PosShare TreeShare) (hq : dat.share w = q) (b : Ref sig .tc) (hb : Pipeline.arrRef spec1 w = b) :
    (((cfg1.win w).arr.view.loc (c : Thread nD τ)) ↦[(cfg1.win w).arr.view.set]{dat.share w} Fn w : sProp 𝕄)
      = (((c : Thread nD τ).loc b) ↦{q} V b) := by
  rw [(arr_whole1 w).set_eq_univ, hq, hF w]; subst hb; rfl

theorem arrays1_at (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (Fn : (w : Fin cfg1.W) → Buf (Elt F) ((cfg1.win w).arr.view.loc (c : Thread nD τ)))
    (V : (b : Ref sig .tc) → Buf (Elt F) ((c : Thread nD τ).loc b)) (hF : ∀ w, Fn w = V (Pipeline.arrRef spec1 w)) :
    (dat.arrays Fn : sProp 𝕄) = iprop(
        (((c : Thread nD τ).loc main_v47) ↦{fullShare} V main_v47)
      ∗ (((c : Thread nD τ).loc main_v34) ↦{fullShare.left} V main_v34)
      ∗ (((c : Thread nD τ).loc main_v34) ↦{fullShare.right} V main_v34)
      ∗ (((c : Thread nD τ).loc main_v49) ↦{fullShare} V main_v49)
      ∗ (((c : Thread nD τ).loc main_v50) ↦{fullShare} V main_v50)) := by
  have h0 := arrays1_comp c dat Fn V hF 0 _ ((share1_in c dat 0 isOut1_0).trans hq0) _ arrRef1_0
  have h1 := arrays1_comp c dat Fn V hF 1 _ ((share1_in c dat 1 isOut1_1).trans hq1) _ arrRef1_1
  have h2 := arrays1_comp c dat Fn V hF 2 _ ((share1_in c dat 2 isOut1_2).trans hq2) _ arrRef1_2
  have h3 := arrays1_comp c dat Fn V hF 3 _ ((share1_in c dat 3 isOut1_3).trans hq3) _ arrRef1_3
  have h4 := arrays1_comp c dat Fn V hF 4 _ (share1_out c dat 4 isOut1_4) _ arrRef1_4
  unfold Dat.arrays
  refine (bigSep_W1' _).trans ?_
  exact sep_eq1 h0 (sep_eq1 h1 (sep_eq1 h2 (sep_eq1 h3 h4)))

theorem arrBufs1_eq (c : Dev nD) (V : (b : Ref sig .tc) → Buf (Elt F) ((c : Thread nD τ).loc b)) :
    (Pipeline.arrBufs spec1 c V : sProp 𝕄) = iprop(
        (((c : Thread nD τ).loc main_v47) ↦{fullShare} V main_v47)
      ∗ (((c : Thread nD τ).loc main_v34) ↦{fullShare} V main_v34)
      ∗ (((c : Thread nD τ).loc main_v49) ↦{fullShare} V main_v49)
      ∗ (((c : Thread nD τ).loc main_v50) ↦{fullShare} V main_v50)) := by
  unfold Pipeline.arrBufs
  exact bigSep_eq_bigSepL_of_eq [main_v47, main_v34, main_v49, main_v50] image_arrRef1 (by decide) _

theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

theorem arrays_of_unscopedBufs1_of (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [unscopedBufs_split1 c V, arrBufs1_eq, arrays1_at c dat hq0 hq1 hq2 hq3 _ V (fun w => (rfl : dat.arrAt w 0 = dat.A w).trans (hA w))]
  refine sep_mono ?_ .rfl
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

theorem unscopedBufs_of_arrays1_of (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  rw [unscopedBufs_split1 c V', arrBufs1_eq, arrays1_at c dat hq0 hq1 hq2 hq3 Fn V' hF]
  refine sep_mono ?_ (Entails.of_eq ?_)
  · iintro ⟨H0, H1l, H1r, H3, H4⟩
    isplitl [H0]; · iexact H0
    isplitl [H1l H1r]
    · iapply (pointsTo_share (PosShare.mem_left_op_right fullShare)).2
      isplitl [H1l]; · iexact H1l
      iexact H1r
    isplitl [H3]; · iexact H3
    iexact H4
  · unfold Pipeline.unscopedRest
    exact bigSep_congr fun b hb => by rw [hrest b (Finset.mem_sdiff.mp hb).2]

theorem q1_0 (V : (c : Dev nD) → (b : Ref sig .tc) → Buf (Elt F) ((c : Thread nD τ).loc b)) (c : Dev nD) : (dat1 V c).q 0 = fullShare := rfl
theorem q1_1 (V : (c : Dev nD) → (b : Ref sig .tc) → Buf (Elt F) ((c : Thread nD τ).loc b)) (c : Dev nD) : (dat1 V c).q 1 = fullShare.left := rfl
theorem q1_2 (V : (c : Dev nD) → (b : Ref sig .tc) → Buf (Elt F) ((c : Thread nD τ).loc b)) (c : Dev nD) : (dat1 V c).q 2 = fullShare.right := rfl
theorem q1_3 (V : (c : Dev nD) → (b : Ref sig .tc) → Buf (Elt F) ((c : Thread nD τ).loc b)) (c : Dev nD) : (dat1 V c).q 3 = fullShare := rfl

theorem arrays_of_unscopedBufs1 (V : (c : Dev nD) → (b : Ref sig .tc) → Buf (Elt F) ((c : Thread nD τ).loc b)) (c : Dev nD) :
    (unscopedBufs c (V c) : sProp 𝕄) ⊢ iprop((dat1 V c).arrays ((dat1 V c).arrAt · 0) ∗ Pipeline.unscopedRest spec1 c (V c)) :=
  arrays_of_unscopedBufs1_of c (dat1 V c) (q1_0 V c) (q1_1 V c) (q1_2 V c) (q1_3 V c) (V c) (A_eq1 V c)

theorem unscopedBufs_of_arrays1 (V : (c : Dev nD) → (b : Ref sig .tc) → Buf (Elt F) ((c : Thread nD τ).loc b)) (c : Dev nD)
    (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) :=
  unscopedBufs_of_arrays1_of c (dat1 V c) (q1_0 V c) (q1_1 V c) (q1_2 V c) (q1_3 V c) (V c) V' _ hF hrest

end Cert.Kernel.Hand

end
-- ==== Proof.KbRegs.lean ====
import proofs.«135532_j46231027974388_1_alg».proof.Proof.KbRegC
import proofs.«135532_j46231027974388_1_alg».proof.Proof.KbShare1

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

def reg0 : Pipeline.RegionSeg (pcfgs (F := F)) adm (pdats m) () defs₀ 𝒱₀ L lv 0 :=
  regL m 0 0 1 launch0 (fun c => (body_obligation0 (tcv (W5 m)) c).loose)
    (V5 m) (V6 m (outs m)) (W5 m) (W6 m) (V5_eq m) (V6_eq m) (fun _ _ => rfl) (fun _ _ => rfl) (fun _ => rfl) (fun _ => rfl)
    (fun _ _ => rfl) (fun _ _ => rfl)
    (fun c => hF_of (dat0 (tcv (W5 m)) c) (W5 m c) 3 main_v34 (res0 m c) (by decide) (by decide) (A_eq0 _ c) rfl HEq.rfl)
    (fun c => hrest_of (cfg := cfg0) (W5 m c) 3 main_v34 (res0 m c) rfl)

def reg1 : Pipeline.RegionSeg (pcfgs (F := F)) adm (pdats m) () defs₀ 𝒱₀ L lv 1 :=
  regOf m 1 1 2 winFacts₀1 block_pos1 stage_whole1 (fun c => (body_obligation1 (tcv (W7 m)) c).loose)
    (V7 m (outs m)) (V8 m (outs m)) (W7 m) (W8 m) (V7_eq m) (V8_eq m) (fun _ _ => rfl) (fun _ _ => rfl) (fun _ => rfl) (fun _ => rfl)
    (arrays_of_unscopedBufs1 (tcv (W7 m)))
    (fun c => unscopedBufs_of_arrays1 (tcv (W7 m)) c (tcv (W8 m) c) (hF_of (dat1 (tcv (W7 m)) c) (W7 m c) 4 main_v50 (res1 m c) (by decide) (by decide) (A_eq1 _ c) rfl HEq.rfl) (hrest_of (cfg := cfg1) (W7 m c) 4 main_v50 (res1 m c) rfl))

def reg2 : Pipeline.RegionSeg (pcfgs (F := F)) adm (pdats m) () defs₀ 𝒱₀ L lv 2 :=
  regL m 2 2 3 launch2 (fun c => (body_obligation2 (tcv (W9 m)) c).loose)
    (V9 m (outs m)) (V10 m (outs m)) (W9 m) (W10 m) (V9_eq m) (V10_eq m) (fun _ _ => rfl) (fun _ _ => rfl) (fun _ => rfl) (fun _ => rfl)
    (fun _ _ => rfl) (fun _ _ => rfl)
    (fun c => hF_of (dat2 (tcv (W9 m)) c) (W9 m c) 4 main_v66 (res2 m c) (by decide) (by decide) (A_eq2 _ c) rfl HEq.rfl)
    (fun c => hrest_of (cfg := cfg2) (W9 m c) 4 main_v66 (res2 m c) rfl)

def reg3 : Pipeline.RegionSeg (pcfgs (F := F)) adm (pdats m) () defs₀ 𝒱₀ L lv 3 :=
  regL m 3 3 4 launch3 (fun c => (body_obligation3 (tcv (W11 m)) c).loose)
    (V11 m (outs m)) (V12 m (outs m)) (W11 m) (W12 m) (V11_eq m) (V12_eq m) (fun _ _ => rfl) (fun _ _ => rfl) (fun _ => rfl) (fun _ => rfl)
    (fun _ _ => rfl) (fun _ _ => rfl)
    (fun c => hF_of (dat3 (tcv (W11 m)) c) (W11 m c) 4 main_v82 (res3 m c) (by decide) (by decide) (A_eq3 _ c) rfl HEq.rfl)
    (fun c => hrest_of (cfg := cfg3) (W11 m c) 4 main_v82 (res3 m c) rfl)

def reg4 : Pipeline.RegionSeg (pcfgs (F := F)) adm (pdats m) () defs₀ 𝒱₀ L lv 4 :=
  regL m 4 4 5 launch4 (fun c => (body_obligation4 (tcv (W13 m)) c).loose)
    (V13 m (outs m)) (V14 m (outs m)) (W13 m) (W14 m) (V13_eq m) (V14_eq m) (fun _ _ => rfl) (fun _ _ => rfl) (fun _ => rfl) (fun _ => rfl)
    (fun _ _ => rfl) (fun _ _ => rfl)
    (fun c => hF_of (dat4 (tcv (W13 m)) c) (W13 m c) 4 main_v98 (res4 m c) (by decide) (by decide) (A_eq4 _ c) rfl HEq.rfl)
    (fun c => hrest_of (cfg := cfg4) (W13 m c) 4 main_v98 (res4 m c) rfl)

def reg5 : Pipeline.RegionSeg (pcfgs (F := F)) adm (pdats m) () defs₀ 𝒱₀ L lv 5 :=
  regL m 5 5 6 launch5 (fun c => (body_obligation5 (tcv (W15 m)) c).loose)
    (V15 m (outs m)) (V16 m (outs m)) (W15 m) (W16 m) (V15_eq m) (V16_eq m) (fun _ _ => rfl) (fun _ _ => rfl) (fun _ => rfl) (fun _ => rfl)
    (fun _ _ => rfl) (fun _ _ => rfl)
    (fun c => hF_of (dat5 (tcv (W15 m)) c) (W15 m c) 4 main_v114 (res5 m c) (by decide) (by decide) (A_eq5 _ c) rfl HEq.rfl)
    (fun c => hrest_of (cfg := cfg5) (W15 m c) 4 main_v114 (res5 m c) rfl)

def reg6 : Pipeline.RegionSeg (pcfgs (F := F)) adm (pdats m) () defs₀ 𝒱₀ L lv 6 :=
  regL m 6 6 7 launch6 (fun c => (body_obligation6 (tcv (W17 m)) c).loose)
    (V17 m (outs m)) (V18 m (outs m)) (W17 m) (W18 m) (V17_eq m) (V18_eq m) (fun _ _ => rfl) (fun _ _ => rfl) (fun _ => rfl) (fun _ => rfl)
    (fun _ _ => rfl) (fun _ _ => rfl)
    (fun c => hF_of (dat6 (tcv (W17 m)) c) (W17 m c) 4 main_v130 (res6 m c) (by decide) (by decide) (A_eq6 _ c) rfl HEq.rfl)
    (fun c => hrest_of (cfg := cfg6) (W17 m c) 4 main_v130 (res6 m c) rfl)

def reg7 : Pipeline.RegionSeg (pcfgs (F := F)) adm (pdats m) () defs₀ 𝒱₀ L lv 7 :=
  regL m 7 7 8 launch7 (fun c => (body_obligation7 (tcv (W19 m)) c).loose)
    (V19 m (outs m)) (V20 m (outs m)) (W19 m) (W20 m) (V19_eq m) (V20_eq m) (fun _ _ => rfl) (fun _ _ => rfl) (fun _ => rfl) (fun _ => rfl)
    (fun _ _ => rfl) (fun _ _ => rfl)
    (fun c => hF_of (dat7 (tcv (W19 m)) c) (W19 m c) 4 main_v146 (res7 m c) (by decide) (by decide) (A_eq7 _ c) rfl HEq.rfl)
    (fun c => hrest_of (cfg := cfg7) (W19 m c) 4 main_v146 (res7 m c) rfl)

def reg8 : Pipeline.RegionSeg (pcfgs (F := F)) adm (pdats m) () defs₀ 𝒱₀ L lv 8 :=
  regL m 8 8 9 launch8 (fun c => (body_obligation8 (tcv (W21 m)) c).loose)
    (V21 m (outs m)) (V22 m (outs m)) (W21 m) (W22 m) (V21_eq m) (V22_eq m) (fun _ _ => rfl) (fun _ _ => rfl) (fun _ => rfl) (fun _ => rfl)
    (fun _ _ => rfl) (fun _ _ => rfl)
    (fun c => hF_of (dat8 (tcv (W21 m)) c) (W21 m c) 4 main_v162 (res8 m c) (by decide) (by decide) (A_eq8 _ c) rfl HEq.rfl)
    (fun c => hrest_of (cfg := cfg8) (W21 m c) 4 main_v162 (res8 m c) rfl)

def reg9 : Pipeline.RegionSeg (pcfgs (F := F)) adm (pdats m) () defs₀ 𝒱₀ L lv 9 :=
  regL m 9 9 10 launch9 (fun c => (body_obligation9 (tcv (W22 m)) c).loose)
    (V22 m (outs m)) (V23 m (outs m)) (W22 m) (W23 m) (V22_eq m) (V23_eq m) (fun _ _ => rfl) (fun _ _ => rfl) (fun _ => rfl) (fun _ => rfl)
    (fun _ _ => rfl) (fun _ _ => rfl)
    (fun c => hF_of (dat9 (tcv (W22 m)) c) (W22 m c) 3 main_v163 (res9 m c) (by decide) (by decide) (A_eq9 _ c) rfl HEq.rfl)
    (fun c => hrest_of (cfg := cfg9) (W22 m c) 3 main_v163 (res9 m c) rfl)

end Cert.Kernel.Hand

end
-- ==== Proof.KbFrame.lean ====
import proofs.«135532_j46231027974388_1_alg».proof.Proof.KbRegs

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

theorem hu_launch : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE_first : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have h : ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) : sProp 𝕄)
      ⊢ bigSep Finset.univ (E (F := F) 0) :=
    bigSep_mono fun c _ => by
      show (iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄)) : sProp 𝕄)
        ⊢ iprop((∃ r, prngReg c r) ∗ ∃ W, owes (c : Thread nD τ) (0 : CellTallies nD τ sig Unit) W)
      iintro ⟨-, HO, -, Hp, -⟩
      isplitl [Hp]; · iexists _; iexact Hp
      iexists ∅; iexact HO
  iintro ⟨H, -⟩
  imodintro
  iapply h
  iexact H

theorem hE_last (c : Dev nD) : E (F := F) 10 c ⊢ (iprop(∃ W, owes (c : Thread nD τ) (0 : CellTallies nD τ sig Unit) W) : sProp 𝕄) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond (F := F) m emb₁ () 𝒱₀ L lv (fun _ _ => rfl) ρ (outs m) (pdats m) 0 (fun _ => BI.emp)
    (initOf (Pipeline.cells cfgs cellOf_inj) (Pipeline.launchToks cfgs cellOf_inj)) hu_launch
    E (hE_first ρ) hE_last
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

end Cert.Kernel.Hand

end
-- ==== Proof.KiLayerBody.lean ====
import proofs.«135532_j46231027974388_1_alg».proof.Proof.Gen.KernelIdeal.Launch
import proofs.«135532_j46231027974388_1_alg».proof.Proof.Gen.KernelIdeal.Skeleton
import proofs.«135532_j46231027974388_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

abbrev rL_a : Rect S2000x64 := Rect.unit (s := S2000x64) ![0, 0] S2000x64.size inb_S2000x64_S2000x64_0_0
abbrev rL_w : Rect S64x64 := Rect.unit (s := S64x64) ![0, 0] S64x64.size inb_S64x64_S64x64_0_0

/-- The layer's value on four input blocks: the canonical form of one piece that covers the block. -/
def outL_4 (x0 x1 x2 : Vec F S2000x64 .f32) (x3 : Vec F S64x64 .f32) : Vec F S2000x64 .f32 :=
  View.canon [⟨rL_a, k2_pay1 (View.ld x0 rL_a) (View.ld x1 rL_a) (View.ld x2 rL_a) (View.ld x3 rL_w)⟩]

theorem before_input {cfg : Cfg sig Λ₀} {c : Dev nD} (dat : Dat τ (Elt F) Unit ℕ (UR sig nD τ) ℕ cfg c) (w : Fin cfg.W) (t : Fin cfg.N)
    (hw : (cfg.win w).isOut = false := by rfl) (hlive : ∀ i, cfg.idle w i = false := by exact fun _ => rfl)
    (hclip : ∀ t t' : Fin cfg.N, (cfg.win w).index t = (cfg.win w).index t' →
      (cfg.win w).clip (cfg.grid.coords t) = (cfg.win w).clip (cfg.grid.coords t') := by exact fun _ _ _ => rfl)
    (hkeep : ∀ t, (cfg.win w).cut (cfg.grid.coords t) (dat.after w t) = dat.blockOf w t := by exact fun _ => rfl) :
    ∀ d, dat.before w t d = dat.fetched w t d :=
  dat.before_in_eq_fetched w hw hlive hclip hkeep t

/-- One run of the layer body (`k`, any region's): inputs `x0 … x3` stay, the output becomes `outL_4` of them, `P` and `Q` pass through. -/
theorem sound_bodyL (c : Dev nD) {i : grid2.Coords}
    {k : grid2.Coords → (a1 : Memref sig .tc .vmem S2000x64 .f32) → a1.IsWhole → (a2 : Memref sig .tc .vmem S2000x64 .f32) → a2.IsWhole →
      (a3 : Memref sig .tc .vmem S2000x64 .f32) → a3.IsWhole → (a4 : Memref sig .tc .vmem S64x64 .f32) → a4.IsWhole →
      (a5 : Memref sig .tc .vmem S2000x64 .f32) → a5.IsWhole → Prog (TpuEff nD τ sig (Elt F) Λ₀ .tc) PUnit}
    {arg1 : Memref sig .tc .vmem S2000x64 .f32} {harg1 : arg1.IsWhole} {arg2 : Memref sig .tc .vmem S2000x64 .f32} {harg2 : arg2.IsWhole}
    {arg3 : Memref sig .tc .vmem S2000x64 .f32} {harg3 : arg3.IsWhole} {arg4 : Memref sig .tc .vmem S64x64 .f32} {harg4 : arg4.IsWhole}
    {arg5 : Memref sig .tc .vmem S2000x64 .f32} {harg5 : arg5.IsWhole} {D0 D1 D2 D3 D4 : Type}
    {b0 : D0 → Vec F S2000x64 .f32} {b1 : D1 → Vec F S2000x64 .f32} {b2 : D2 → Vec F S2000x64 .f32} {b3 : D3 → Vec F S64x64 .f32}
    {b4 : D4 → Vec F S2000x64 .f32} (x0 x1 x2 : Vec F S2000x64 .f32) (x3 : Vec F S64x64 .f32)
    (h0 : ∀ d, b0 d = x0) (h1 : ∀ d, b1 d = x1) (h2 : ∀ d, b2 d = x2) (h3 : ∀ d, b3 d = x3) {P Q : sProp 𝕄}
    (hk : k = cc2__layer_kernel := by rfl) :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d))
        ∗ (∃ d, owns (c : Thread nD τ) arg5 fullShare (b4 d)))
      ⊢ wp frame (wpE (defs₀ (F := F)) Variants.none c none) Set.univ
          (k i arg1 harg1 arg2 harg2 arg3 harg3 arg4 harg4 arg5 harg5) fun _ =>
          iprop(P ∗ Q ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outL_4 x0 x1 x2 x3)) := by
  subst hk
  simp only [h0, h1, h2, h3, owns_eq_rep, cc2__layer_kernel_eq_skeleton]; unfold cc2__layer_kernel_skel
  iintro ⟨HP, HQ, ⟨%_, H0⟩, ⟨%_, H1⟩, ⟨%_, H2⟩, ⟨%_, H3⟩, ⟨%_, H4⟩⟩
  sl_exec
  sl_step
  iframe
  iapply rep_of_owns; unfold owns; iexists _; iframe; ipureintro
  rw [View.read_writes_eq_canon _ _ _ (View.cover_of_tiled _ S2000x64.size rfl)]; simp only [View.readAt_rep]; rfl

end Cert.KernelIdeal.Hand

end
-- ==== Proof.KiBody0.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array (at its contents `V`) that grid point `t` addresses. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_S2000x256 : Rect S2000x256 := Rect.unit (s := S2000x256) ![0, 0] S2000x256.size inb_S2000x256_S2000x256_0_0
abbrev r0_S256x64 : Rect S256x64 := Rect.unit (s := S256x64) ![0, 0] S256x64.size inb_S256x64_S256x64_0_0
abbrev r0_S64 : Rect S64 := Rect.unit (s := S64) ![0] S64.size inb_S64_S64_0
abbrev r0_S2000x64 : Rect S2000x64 := Rect.unit (s := S2000x64) ![0, 0] S2000x64.size inb_S2000x64_S2000x64_0_0

/-- The projection's value on three input blocks: the canonical form of one piece that covers the block. -/
def out0_3 (x0 : Vec F S2000x256 .f32) (x1 : Vec F S256x64 .f32) (x2 : Vec F S64 .f32) : Vec F S2000x64 .f32 :=
  View.canon [⟨r0_S2000x64, k0_pay1 (View.ld x0 r0_S2000x256) (View.ld x1 r0_S256x64) (View.ld x2 r0_S64)⟩]

/-- One run of the projection body: inputs `x0 x1 x2` stay, the output becomes `out0_3` of them, `P` and `Q` pass through. -/
theorem sound_body0 (c : Dev nD) {i : grid0.Coords}
    {arg1 : Memref sig .tc .vmem S2000x256 .f32} {harg1 : arg1.IsWhole} {arg2 : Memref sig .tc .vmem S256x64 .f32} {harg2 : arg2.IsWhole}
    {arg3 : Memref sig .tc .vmem S64 .f32} {harg3 : arg3.IsWhole} {arg4 : Memref sig .tc .vmem S2000x64 .f32} {harg4 : arg4.IsWhole}
    {D0 D1 D2 D3 : Type} {b0 : D0 → Vec F S2000x256 .f32} {b1 : D1 → Vec F S256x64 .f32} {b2 : D2 → Vec F S64 .f32} {b3 : D3 → Vec F S2000x64 .f32}
    (x0 : Vec F S2000x256 .f32) (x1 : Vec F S256x64 .f32) (x2 : Vec F S64 .f32)
    (h0 : ∀ d, b0 d = x0) (h1 : ∀ d, b1 d = x1) (h2 : ∀ d, b2 d = x2) {P Q : sProp 𝕄} :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ
          (cc0__proj_kernel i arg1 harg1 arg2 harg2 arg3 harg3 arg4 harg4) fun _ =>
          iprop(P ∗ Q ∗ owns (c : Thread nD τ) arg1 fullShare x0 ∗ owns (c : Thread nD τ) arg2 fullShare x1
            ∗ owns (c : Thread nD τ) arg3 fullShare x2 ∗ owns (c : Thread nD τ) arg4 fullShare (out0_3 x0 x1 x2)) := by
  simp only [h0, h1, h2, owns_eq_rep, cc0__proj_kernel_eq_skeleton]; unfold cc0__proj_kernel_skel
  iintro ⟨HP, HQ, ⟨%_, H0⟩, ⟨%_, H1⟩, ⟨%_, H2⟩, ⟨%_, H3⟩⟩
  sl_exec
  sl_step
  iframe
  iapply rep_of_owns; unfold owns; iexists _; iframe; ipureintro
  rw [View.read_writes_eq_canon _ _ _ (View.cover_of_tiled _ S2000x64.size rfl)]; simp only [View.readAt_rep]; rfl

/-- Each input's block stays and the output block becomes `out0_3` of the three input blocks. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  rw [bigSep_W0, bigSep_W0]; sl_whnfR [defs₀, Defs.onTc]; dsimp only [dat0]
  exact sound_body0 c (iblk0 V c 0 t) (iblk0 V c 1 t) (iblk0 V c 2 t) (before_input (dat0 V c) 0 t)
    (before_input (dat0 V c) 1 t) (before_input (dat0 V c) 2 t)

end Cert.KernelIdeal.Hand

end
-- ==== Proof.KiBody1.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block stays and the output block becomes `outL_4` of the four input blocks. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outL_4 (iblk1 V c 0 t) (iblk1 V c 1 t) (iblk1 V c 2 t) (iblk1 V c 3 t)
  Φ _ := Pipeline.ΦA spec1 c
  q w := match w with | ⟨1, _⟩ => fullShare.left | ⟨2, _⟩ => fullShare.right | _ => fullShare
  owed _ := 0

theorem A_eq1 (c : Dev nD) (w : Fin cfg1.W) : (dat1 V c).A w = V c (Pipeline.arrRef spec1 w) := rfl

theorem after1_4 (c : Dev nD) (t : Fin cfg1.N) :
    (dat1 V c).after 4 t = outL_4 (iblk1 V c 0 t) (iblk1 V c 1 t) (iblk1 V c 2 t) (iblk1 V c 3 t) := by dsimp only [dat1]

theorem body_obligation1 (c : Dev nD) : BodyObligation (dat1 (F := F) V c) (defs₀ (F := F)) Variants.none () Set.univ := fun t => by
  rw [bigSep_W1, bigSep_W1]; sl_whnfR [defs₀, Defs.onTc]; dsimp only [dat1]
  exact sound_bodyL c (iblk1 V c 0 t) (iblk1 V c 1 t) (iblk1 V c 2 t) (iblk1 V c 3 t) (before_input (dat1 V c) 0 t)
    (before_input (dat1 V c) 1 t) (before_input (dat1 V c) 2 t) (before_input (dat1 V c) 3 t)

end Cert.KernelIdeal.Hand

end
-- ==== Proof.KiBody2.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's block stays and the output block becomes `outL_4` of the four input blocks. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outL_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl

theorem after2_4 (c : Dev nD) (t : Fin cfg2.N) :
    (dat2 V c).after 4 t = outL_4 (iblk2 V c 0 t) (iblk2 V c 1 t) (iblk2 V c 2 t) (iblk2 V c 3 t) := by dsimp only [dat2]

theorem body_obligation2 (c : Dev nD) : BodyObligation (dat2 (F := F) V c) (defs₀ (F := F)) Variants.none () Set.univ := fun t => by
  rw [bigSep_W2, bigSep_W2]; sl_whnfR [defs₀, Defs.onTc]; dsimp only [dat2]
  exact sound_bodyL c (iblk2 V c 0 t) (iblk2 V c 1 t) (iblk2 V c 2 t) (iblk2 V c 3 t) (before_input (dat2 V c) 0 t)
    (before_input (dat2 V c) 1 t) (before_input (dat2 V c) 2 t) (before_input (dat2 V c) 3 t)

end Cert.KernelIdeal.Hand

end
-- ==== Proof.KiBody3.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input's block stays and the output block becomes `outL_4` of the four input blocks. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outL_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) :
    (dat3 V c).after 4 t = outL_4 (iblk3 V c 0 t) (iblk3 V c 1 t) (iblk3 V c 2 t) (iblk3 V c 3 t) := by dsimp only [dat3]

theorem body_obligation3 (c : Dev nD) : BodyObligation (dat3 (F := F) V c) (defs₀ (F := F)) Variants.none () Set.univ := fun t => by
  rw [bigSep_W3, bigSep_W3]; sl_whnfR [defs₀, Defs.onTc]; dsimp only [dat3]
  exact sound_bodyL c (iblk3 V c 0 t) (iblk3 V c 1 t) (iblk3 V c 2 t) (iblk3 V c 3 t) (before_input (dat3 V c) 0 t)
    (before_input (dat3 V c) 1 t) (before_input (dat3 V c) 2 t) (before_input (dat3 V c) 3 t)

end Cert.KernelIdeal.Hand

end
-- ==== Proof.KiBody4.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's block stays and the output block becomes `outL_4` of the four input blocks. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outL_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl

theorem after4_4 (c : Dev nD) (t : Fin cfg4.N) :
    (dat4 V c).after 4 t = outL_4 (iblk4 V c 0 t) (iblk4 V c 1 t) (iblk4 V c 2 t) (iblk4 V c 3 t) := by dsimp only [dat4]

theorem body_obligation4 (c : Dev nD) : BodyObligation (dat4 (F := F) V c) (defs₀ (F := F)) Variants.none () Set.univ := fun t => by
  rw [bigSep_W4, bigSep_W4]; sl_whnfR [defs₀, Defs.onTc]; dsimp only [dat4]
  exact sound_bodyL c (iblk4 V c 0 t) (iblk4 V c 1 t) (iblk4 V c 2 t) (iblk4 V c 3 t) (before_input (dat4 V c) 0 t)
    (before_input (dat4 V c) 1 t) (before_input (dat4 V c) 2 t) (before_input (dat4 V c) 3 t)

end Cert.KernelIdeal.Hand

end
-- ==== Proof.KiBody5.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input's block stays and the output block becomes `outL_4` of the four input blocks. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => outL_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) :
    (dat5 V c).after 4 t = outL_4 (iblk5 V c 0 t) (iblk5 V c 1 t) (iblk5 V c 2 t) (iblk5 V c 3 t) := by dsimp only [dat5]

theorem body_obligation5 (c : Dev nD) : BodyObligation (dat5 (F := F) V c) (defs₀ (F := F)) Variants.none () Set.univ := fun t => by
  rw [bigSep_W5, bigSep_W5]; sl_whnfR [defs₀, Defs.onTc]; dsimp only [dat5]
  exact sound_bodyL c (iblk5 V c 0 t) (iblk5 V c 1 t) (iblk5 V c 2 t) (iblk5 V c 3 t) (before_input (dat5 V c) 0 t)
    (before_input (dat5 V c) 1 t) (before_input (dat5 V c) 2 t) (before_input (dat5 V c) 3 t)

end Cert.KernelIdeal.Hand

end
-- ==== Proof.KiBody6.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Each input's block stays and the output block becomes `outL_4` of the four input blocks. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => outL_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl

theorem after6_4 (c : Dev nD) (t : Fin cfg6.N) :
    (dat6 V c).after 4 t = outL_4 (iblk6 V c 0 t) (iblk6 V c 1 t) (iblk6 V c 2 t) (iblk6 V c 3 t) := by dsimp only [dat6]

theorem body_obligation6 (c : Dev nD) : BodyObligation (dat6 (F := F) V c) (defs₀ (F := F)) Variants.none () Set.univ := fun t => by
  rw [bigSep_W6, bigSep_W6]; sl_whnfR [defs₀, Defs.onTc]; dsimp only [dat6]
  exact sound_bodyL c (iblk6 V c 0 t) (iblk6 V c 1 t) (iblk6 V c 2 t) (iblk6 V c 3 t) (before_input (dat6 V c) 0 t)
    (before_input (dat6 V c) 1 t) (before_input (dat6 V c) 2 t) (before_input (dat6 V c) 3 t)

end Cert.KernelIdeal.Hand

end
-- ==== Proof.KiBody7.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input's block stays and the output block becomes `outL_4` of the four input blocks. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => outL_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_4 (c : Dev nD) (t : Fin cfg7.N) :
    (dat7 V c).after 4 t = outL_4 (iblk7 V c 0 t) (iblk7 V c 1 t) (iblk7 V c 2 t) (iblk7 V c 3 t) := by dsimp only [dat7]

theorem body_obligation7 (c : Dev nD) : BodyObligation (dat7 (F := F) V c) (defs₀ (F := F)) Variants.none () Set.univ := fun t => by
  rw [bigSep_W7, bigSep_W7]; sl_whnfR [defs₀, Defs.onTc]; dsimp only [dat7]
  exact sound_bodyL c (iblk7 V c 0 t) (iblk7 V c 1 t) (iblk7 V c 2 t) (iblk7 V c 3 t) (before_input (dat7 V c) 0 t)
    (before_input (dat7 V c) 1 t) (before_input (dat7 V c) 2 t) (before_input (dat7 V c) 3 t)

end Cert.KernelIdeal.Hand

end
-- ==== Proof.KiBody8.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat BodyObligation)

variable {F : FTy → Type} [FloatOps F]

variable (V : (c : Dev nD) → (b : Ref sig .tc) → Buf (Elt F) ((c : Thread nD τ).loc b))

/-- The block of window `w`'s array (at its contents `V`) that grid point `t` addresses. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input's block stays and the output block becomes `outL_4` of the four input blocks. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => outL_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := rfl

theorem after8_4 (c : Dev nD) (t : Fin cfg8.N) :
    (dat8 V c).after 4 t = outL_4 (iblk8 V c 0 t) (iblk8 V c 1 t) (iblk8 V c 2 t) (iblk8 V c 3 t) := by dsimp only [dat8]

theorem body_obligation8 (c : Dev nD) : BodyObligation (dat8 (F := F) V c) (defs₀ (F := F)) Variants.none () Set.univ := fun t => by
  rw [bigSep_W8, bigSep_W8]; sl_whnfR [defs₀, Defs.onTc]; dsimp only [dat8]
  exact sound_bodyL c (iblk8 V c 0 t) (iblk8 V c 1 t) (iblk8 V c 2 t) (iblk8 V c 3 t) (before_input (dat8 V c) 0 t)
    (before_input (dat8 V c) 1 t) (before_input (dat8 V c) 2 t) (before_input (dat8 V c) 3 t)

end Cert.KernelIdeal.Hand

end
-- ==== Proof.KiBody9.lean ====
import proofs.«135532_j46231027974388_1_alg».proof.Proof.KiLayerBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array (at its contents `V`) that grid point `t` addresses. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_S2000x64 : Rect S2000x64 := Rect.unit (s := S2000x64) ![0, 0] S2000x64.size inb_S2000x64_S2000x64_0_0
abbrev r9_S64x40 : Rect S64x40 := Rect.unit (s := S64x40) ![0, 0] S64x40.size inb_S64x40_S64x40_0_0
abbrev r9_S40 : Rect S40 := Rect.unit (s := S40) ![0] S40.size inb_S40_S40_0
abbrev r9_S2000x40 : Rect S2000x40 := Rect.unit (s := S2000x40) ![0, 0] S2000x40.size inb_S2000x40_S2000x40_0_0

/-- The head's value on three input blocks: the canonical form of one piece that covers the block. -/
def out9_3 (x0 : Vec F S2000x64 .f32) (x1 : Vec F S64x40 .f32) (x2 : Vec F S40 .f32) : Vec F S2000x40 .f32 :=
  View.canon [⟨r9_S2000x40, k9_pay1 (View.ld x0 r9_S2000x64) (View.ld x1 r9_S64x40) (View.ld x2 r9_S40)⟩]

/-- One run of the head body: inputs `x0 x1 x2` stay, the output becomes `out9_3` of them, `P` and `Q` pass through. -/
theorem sound_body9 (c : Dev nD) {i : grid9.Coords}
    {arg1 : Memref sig .tc .vmem S2000x64 .f32} {harg1 : arg1.IsWhole} {arg2 : Memref sig .tc .vmem S64x40 .f32} {harg2 : arg2.IsWhole}
    {arg3 : Memref sig .tc .vmem S40 .f32} {harg3 : arg3.IsWhole} {arg4 : Memref sig .tc .vmem S2000x40 .f32} {harg4 : arg4.IsWhole}
    {D0 D1 D2 D3 : Type} {b0 : D0 → Vec F S2000x64 .f32} {b1 : D1 → Vec F S64x40 .f32} {b2 : D2 → Vec F S40 .f32} {b3 : D3 → Vec F S2000x40 .f32}
    (x0 : Vec F S2000x64 .f32) (x1 : Vec F S64x40 .f32) (x2 : Vec F S40 .f32)
    (h0 : ∀ d, b0 d = x0) (h1 : ∀ d, b1 d = x1) (h2 : ∀ d, b2 d = x2) {P Q : sProp 𝕄} :
    iprop(P ∗ Q ∗ (∃ d, owns (c : Thread nD τ) arg1 fullShare (b0 d)) ∗ (∃ d, owns (c : Thread nD τ) arg2 fullShare (b1 d))
        ∗ (∃ d, owns (c : Thread nD τ) arg3 fullShare (b2 d)) ∗ (∃ d, owns (c : Thread nD τ) arg4 fullShare (b3 d)))
      ⊢ wp frame (wpE (defs₀ (F := F)) Variants.none c none) Set.univ
          (cc9__logits_kernel i arg1 harg1 arg2 harg2 arg3 harg3 arg4 harg4) fun _ =>
          iprop(P ∗ Q ∗ owns (c : Thread nD τ) arg1 fullShare x0 ∗ owns (c : Thread nD τ) arg2 fullShare x1
            ∗ owns (c : Thread nD τ) arg3 fullShare x2 ∗ owns (c : Thread nD τ) arg4 fullShare (out9_3 x0 x1 x2)) := by
  simp only [h0, h1, h2, owns_eq_rep, cc9__logits_kernel_eq_skeleton]; unfold cc9__logits_kernel_skel
  iintro ⟨HP, HQ, ⟨%_, H0⟩, ⟨%_, H1⟩, ⟨%_, H2⟩, ⟨%_, H3⟩⟩
  sl_exec
  sl_step
  iframe
  iapply rep_of_owns; unfold owns; iexists _; iframe; ipureintro
  rw [View.read_writes_eq_canon _ _ _ (View.cover_of_tiled _ S2000x40.size rfl)]; simp only [View.readAt_rep]; rfl

/-- Each input's block stays and the output block becomes `out9_3` of the three input blocks. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := rfl

theorem after9_3 (c : Dev nD) (t : Fin cfg9.N) :
    (dat9 V c).after 3 t = out9_3 (iblk9 V c 0 t) (iblk9 V c 1 t) (iblk9 V c 2 t) := by dsimp only [dat9]

theorem body_obligation9 (c : Dev nD) : BodyObligation (dat9 (F := F) V c) (defs₀ (F := F)) Variants.none () Set.univ := fun t => by
  rw [bigSep_W9, bigSep_W9]; sl_whnfR [defs₀, Defs.onTc]; dsimp only [dat9]
  exact sound_body9 c (iblk9 V c 0 t) (iblk9 V c 1 t) (iblk9 V c 2 t) (before_input (dat9 V c) 0 t)
    (before_input (dat9 V c) 1 t) (before_input (dat9 V c) 2 t)

end Cert.KernelIdeal.Hand

end
-- ==== Proof.KiFold.lean ====
import proofs.«135532_j46231027974388_1_alg».proof.Proof.RegionsKI
import proofs.«135532_j46231027974388_1_alg».proof.Proof.KiBody0
import proofs.«135532_j46231027974388_1_alg».proof.Proof.KiBody1
import proofs.«135532_j46231027974388_1_alg».proof.Proof.KiBody2
import proofs.«135532_j46231027974388_1_alg».proof.Proof.KiBody3
import proofs.«135532_j46231027974388_1_alg».proof.Proof.KiBody4
import proofs.«135532_j46231027974388_1_alg».proof.Proof.KiBody5
import proofs.«135532_j46231027974388_1_alg».proof.Proof.KiBody6
import proofs.«135532_j46231027974388_1_alg».proof.Proof.KiBody7
import proofs.«135532_j46231027974388_1_alg».proof.Proof.KiBody8
import proofs.«135532_j46231027974388_1_alg».proof.Proof.KiBody9

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev tcv (W : Dev nD → Valuation τ sig (Elt F)) : (c : Dev nD) → (b : Ref sig .tc) → Buf (Elt F) ((c : Thread nD τ).loc b) :=
  fun c b => W c b

def W5 : Dev nD → Valuation τ sig (Elt F) := fun c => V5 m c

def res0 (c : Dev nD) : Buf (Elt F) ((c : Thread nD τ).loc main_v34) := (dat0 (tcv (W5 m)) c).arrAt 3 cfg0.N

def W6 : Dev nD → Valuation τ sig (Elt F) := fun c => Function.update (W5 m c) main_v34 (res0 m c)

def W7 : Dev nD → Valuation τ sig (Elt F) := fun c => StableHlo.after hostOps1 (W6 m c)

def res1 (c : Dev nD) : Buf (Elt F) ((c : Thread nD τ).loc main_v50) := (dat1 (tcv (W7 m)) c).arrAt 4 cfg1.N

def W8 : Dev nD → Valuation τ sig (Elt F) := fun c => Function.update (W7 m c) main_v50 (res1 m c)

def W9 : Dev nD → Valuation τ sig (Elt F) := fun c => StableHlo.after hostOps2 (W8 m c)

def res2 (c : Dev nD) : Buf (Elt F) ((c : Thread nD τ).loc main_v66) := (dat2 (tcv (W9 m)) c).arrAt 4 cfg2.N

def W10 : Dev nD → Valuation τ sig (Elt F) := fun c => Function.update (W9 m c) main_v66 (res2 m c)

def W11 : Dev nD → Valuation τ sig (Elt F) := fun c => StableHlo.after hostOps3 (W10 m c)

def res3 (c : Dev nD) : Buf (Elt F) ((c : Thread nD τ).loc main_v82) := (dat3 (tcv (W11 m)) c).arrAt 4 cfg3.N

def W12 : Dev nD → Valuation τ sig (Elt F) := fun c => Function.update (W11 m c) main_v82 (res3 m c)

def W13 : Dev nD → Valuation τ sig (Elt F) := fun c => StableHlo.after hostOps4 (W12 m c)

def res4 (c : Dev nD) : Buf (Elt F) ((c : Thread nD τ).loc main_v98) := (dat4 (tcv (W13 m)) c).arrAt 4 cfg4.N

def W14 : Dev nD → Valuation τ sig (Elt F) := fun c => Function.update (W13 m c) main_v98 (res4 m c)

def W15 : Dev nD → Valuation τ sig (Elt F) := fun c => StableHlo.after hostOps5 (W14 m c)

def res5 (c : Dev nD) : Buf (Elt F) ((c : Thread nD τ).loc main_v114) := (dat5 (tcv (W15 m)) c).arrAt 4 cfg5.N

def W16 : Dev nD → Valuation τ sig (Elt F) := fun c => Function.update (W15 m c) main_v114 (res5 m c)

def W17 : Dev nD → Valuation τ sig (Elt F) := fun c => StableHlo.after hostOps6 (W16 m c)

def res6 (c : Dev nD) : Buf (Elt F) ((c : Thread nD τ).loc main_v130) := (dat6 (tcv (W17 m)) c).arrAt 4 cfg6.N

def W18 : Dev nD → Valuation τ sig (Elt F) := fun c => Function.update (W17 m c) main_v130 (res6 m c)

def W19 : Dev nD → Valuation τ sig (Elt F) := fun c => StableHlo.after hostOps7 (W18 m c)

def res7 (c : Dev nD) : Buf (Elt F) ((c : Thread nD τ).loc main_v146) := (dat7 (tcv (W19 m)) c).arrAt 4 cfg7.N

def W20 : Dev nD → Valuation τ sig (Elt F) := fun c => Function.update (W19 m c) main_v146 (res7 m c)

def W21 : Dev nD → Valuation τ sig (Elt F) := fun c => StableHlo.after hostOps8 (W20 m c)

def res8 (c : Dev nD) : Buf (Elt F) ((c : Thread nD τ).loc main_v162) := (dat8 (tcv (W21 m)) c).arrAt 4 cfg8.N

def W22 : Dev nD → Valuation τ sig (Elt F) := fun c => Function.update (W21 m c) main_v162 (res8 m c)

def res9 (c : Dev nD) : Buf (Elt F) ((c : Thread nD τ).loc main_v163) := (dat9 (tcv (W22 m)) c).arrAt 3 cfg9.N

def W23 : Dev nD → Valuation τ sig (Elt F) := fun c => Function.update (W22 m c) main_v163 (res9 m c)

def outs : Outs (F := F) := fun J r c => match J with
  | 6 => W6 m c r
  | 8 => W8 m c r
  | 10 => W10 m c r
  | 12 => W12 m c r
  | 14 => W14 m c r
  | 16 => W16 m c r
  | 18 => W18 m c r
  | 20 => W20 m c r
  | 22 => W22 m c r
  | 23 => W23 m c r
  | _ => W5 m c r

theorem upd_eq {V W : Valuation τ sig (Elt F)} (h : V = W) (o : Ref sig .tc)
    (x : (Proc.devRef (τ := τ) .tc o : DevRef τ sig).ty.Contents (Elt F)) :
    Function.update V (Proc.devRef .tc o) (Function.update W (Proc.devRef .tc o) x (Proc.devRef .tc o)) = Function.update W (Proc.devRef .tc o) x := by
  rw [h, Function.update_self]

theorem V5_eq (c : Dev nD) : V5 m c = W5 m c := rfl
theorem V6_eq (c : Dev nD) : V6 m (outs m) c = W6 m c := upd_eq (V5_eq m c) main_v34 (res0 m c)
theorem V7_eq (c : Dev nD) : V7 m (outs m) c = W7 m c := congrArg (StableHlo.after hostOps1) (V6_eq m c)
theorem V8_eq (c : Dev nD) : V8 m (outs m) c = W8 m c := upd_eq (V7_eq m c) main_v50 (res1 m c)
theorem V9_eq (c : Dev nD) : V9 m (outs m) c = W9 m c := congrArg (StableHlo.after hostOps2) (V8_eq m c)
theorem V10_eq (c : Dev nD) : V10 m (outs m) c = W10 m c := upd_eq (V9_eq m c) main_v66 (res2 m c)
theorem V11_eq (c : Dev nD) : V11 m (outs m) c = W11 m c := congrArg (StableHlo.after hostOps3) (V10_eq m c)
theorem V12_eq (c : Dev nD) : V12 m (outs m) c = W12 m c := upd_eq (V11_eq m c) main_v82 (res3 m c)
theorem V13_eq (c : Dev nD) : V13 m (outs m) c = W13 m c := congrArg (StableHlo.after hostOps4) (V12_eq m c)
theorem V14_eq (c : Dev nD) : V14 m (outs m) c = W14 m c := upd_eq (V13_eq m c) main_v98 (res4 m c)
theorem V15_eq (c : Dev nD) : V15 m (outs m) c = W15 m c := congrArg (StableHlo.after hostOps5) (V14_eq m c)
theorem V16_eq (c : Dev nD) : V16 m (outs m) c = W16 m c := upd_eq (V15_eq m c) main_v114 (res5 m c)
theorem V17_eq (c : Dev nD) : V17 m (outs m) c = W17 m c := congrArg (StableHlo.after hostOps6) (V16_eq m c)
theorem V18_eq (c : Dev nD) : V18 m (outs m) c = W18 m c := upd_eq (V17_eq m c) main_v130 (res6 m c)
theorem V19_eq (c : Dev nD) : V19 m (outs m) c = W19 m c := congrArg (StableHlo.after hostOps7) (V18_eq m c)
theorem V20_eq (c : Dev nD) : V20 m (outs m) c = W20 m c := upd_eq (V19_eq m c) main_v146 (res7 m c)
theorem V21_eq (c : Dev nD) : V21 m (outs m) c = W21 m c := congrArg (StableHlo.after hostOps8) (V20_eq m c)
theorem V22_eq (c : Dev nD) : V22 m (outs m) c = W22 m c := upd_eq (V21_eq m c) main_v162 (res8 m c)
theorem V23_eq (c : Dev nD) : V23 m (outs m) c = W23 m c := upd_eq (V22_eq m c) main_v163 (res9 m c)

def pdats : (p : Fin 10) → (c : Dev nD) → Dat τ (Elt F) Unit ℕ (UR sig nD τ) ℕ (cfgs p) c
  | ⟨0, _⟩ => fun c => dat0 (tcv (W5 m)) c
  | ⟨1, _⟩ => fun c => dat1 (tcv (W7 m)) c
  | ⟨2, _⟩ => fun c => dat2 (tcv (W9 m)) c
  | ⟨3, _⟩ => fun c => dat3 (tcv (W11 m)) c
  | ⟨4, _⟩ => fun c => dat4 (tcv (W13 m)) c
  | ⟨5, _⟩ => fun c => dat5 (tcv (W15 m)) c
  | ⟨6, _⟩ => fun c => dat6 (tcv (W17 m)) c
  | ⟨7, _⟩ => fun c => dat7 (tcv (W19 m)) c
  | ⟨8, _⟩ => fun c => dat8 (tcv (W21 m)) c
  | ⟨9, _⟩ => fun c => dat9 (tcv (W22 m)) c

end Cert.KernelIdeal.Hand

end
-- ==== Proof.KiRegC.lean ====
import proofs.«135532_j46231027974388_1_alg».proof.Proof.KiFold
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
/-- What every segment carries beside the buffers. -/
abbrev R (c : Dev nD) : sProp 𝕄 := iprop((∃ r, prngReg c r) ∗ ∃ W, owes (c : Thread nD τ) (0 : CellTallies nD τ sig Unit) W)
abbrev E : Fin 11 → Dev nD → sProp 𝕄 := fun _ c => R (F := F) c

theorem upd_ne (W : Valuation τ sig (Elt F)) (o b : Ref sig .tc) (x) (h : b ≠ o) :
    Function.update W (Proc.devRef .tc o) x (Proc.devRef .tc b) = W (Proc.devRef .tc b) :=
  Function.update_of_ne (StableHlo.devRef_ne_of_ne h) _ _

set_option backward.isDefEq.respectTransparency.types false in
/-- A kernel region as a segment of the run: entered from one contents of the buffers, left at another. -/
def regOf (p : Fin 10) (i j : Fin 11) (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m p c) (defs₀ (F := F)) 𝒱₀ () Set.univ)
    (Vin Vout Win Wout : Dev nD → Valuation τ sig (Elt F)) (hVin : ∀ c, Vin c = Win c) (hVout : ∀ c, Vout c = Wout c)
    (howed : ∀ c t, (pdats m p c).owed t = 0) (hrec : ∀ c t, (pdats m p c).recorded t = Set.univ)
    (hΦ0 : ∀ c, (pdats m p c).Φ 0 = Pipeline.ΦA (pcfgs (F := F) p).spec c)
    (hΦN : ∀ c, (pdats m p c).Φ (Fin.last _) = Pipeline.ΦA (pcfgs (F := F) p).spec c)
    (hsplit : ∀ c, (unscopedBufs c (tcv Win c) : sProp 𝕄)
      ⊢ iprop((pdats m p c).arrays ((pdats m p c).arrAt · 0) ∗ Pipeline.unscopedRest (pcfgs (F := F) p).spec c (tcv Win c)))
    (hjoin : ∀ c, iprop((pdats m p c).arrays ((pdats m p c).arrAt · (cfgs p).N) ∗ Pipeline.unscopedRest (pcfgs (F := F) p).spec c (tcv Win c))
      ⊢ (unscopedBufs c (tcv Wout c) : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ E i c)
  post c := iprop(StableHlo.held (c : Thread nD τ) (Pipeline.ucRefs τ sig) (Vout c) ∗ E j c)
  X c := iprop(∃ r, prngReg c r)
  Y c := iprop(∃ r, prngReg c r)
  Z c := Pipeline.unscopedRest (Ix := Unit) (Name := ℕ) (U := UR sig nD τ) (Lvl := ℕ) (pcfgs (F := F) p).spec c (tcv Win c)
  hentry c := by
    rw [Pipeline.ownSems0_none, hVin]
    have hsplit := hsplit c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    rw [hΦ0]; unfold Pipeline.ΦA
    iintro ⟨Hp, -, Hr⟩
    isplitl [Hr]; · iexact Hr
    iexact Hp
  hout c := by
    rw [Pipeline.ownSems0_none, hΦN]; unfold Pipeline.ΦA
    iintro ⟨Hr, Hp⟩
    isplitl [Hp]; · iexact Hp
    isplitr; · iempintro
    iexact Hr
  hexit c := by
    rw [hVout]; unfold Pipeline.Dat.owesAt Pipeline.owesWithin; rw [howed c]
    have hjoin := hjoin c
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-- The same when the region's arrays are distinct buffers. -/
def regL (p : Fin 10) (i j : Fin 11) (launch : Pipeline.LaunchFacts (nD := nD) (τ := τ) cfgs p) (hbody : ∀ c, Pipeline.BodyObligationLoose (pdats m p c) (defs₀ (F := F)) 𝒱₀ () Set.univ)
    (Vin Vout Win Wout : Dev nD → Valuation τ sig (Elt F)) (hVin : ∀ c, Vin c = Win c) (hVout : ∀ c, Vout c = Wout c)
    (howed : ∀ c t, (pdats m p c).owed t = 0) (hrec : ∀ c t, (pdats m p c).recorded t = Set.univ)
    (hΦ0 : ∀ c, (pdats m p c).Φ 0 = Pipeline.ΦA (pcfgs (F := F) p).spec c)
    (hΦN : ∀ c, (pdats m p c).Φ (Fin.last _) = Pipeline.ΦA (pcfgs (F := F) p).spec c)
    (hq : ∀ c w, (pdats m p c).q w = fullShare)
    (hA : ∀ c w, (pdats m p c).A w = tcv Win c (Pipeline.arrRef (pcfgs (F := F) p).spec w))
    (hF : ∀ c w, (pdats m p c).arrAt w (cfgs p).N = tcv Wout c (Pipeline.arrRef (pcfgs (F := F) p).spec w))
    (hrest : ∀ c b, b ∉ Finset.univ.image (Pipeline.arrRef (pcfgs (F := F) p).spec) → tcv Wout c b = tcv Win c b) :
    Pipeline.RegionSeg (pcfgs (F := F)) adm (pdats m) () defs₀ 𝒱₀ L lv p :=
  regOf m p i j launch.win.to₀ launch.block_pos launch.stage_whole hbody Vin Vout Win Wout hVin hVout howed hrec hΦ0 hΦN
    (fun c => Pipeline.arrays_of_unscopedBufs (p := p) (pcfgs (F := F)) adm (pdats m) launch.win launch.arr_whole c
      ((pdats m p c).share_full (hq c)) (tcv Win c) (hA c))
    (fun c => Pipeline.unscopedBufs_of_arrays (p := p) (pcfgs (F := F)) adm (Ix := Unit) (Name := ℕ) (U := UR sig nD τ) (Lvl := ℕ)
      launch.win launch.arr_whole c (pdats m) ((pdats m p c).share_full (hq c))
      (tcv Win c) (tcv Wout c) ((pdats m p c).arrAt · (cfgs p).N) (hF c) (hrest c))

/-- A region's arrays at its exit: an input array as entered, the output array as the region leaves it. -/
theorem hF_of {cfg : Pipeline.Cfg sig Λ₀} {c : Dev nD} (dat : Dat τ (Elt F) Unit ℕ (UR sig nD τ) ℕ cfg c)
    (Wi : Valuation τ sig (Elt F)) (wo : Fin cfg.W) (o : Ref sig .tc) (x)
    (hin : ∀ w, w ≠ wo → (cfg.win w).isOut = false) (hne : ∀ w, w ≠ wo → Pipeline.arrRef cfg.spec w ≠ o)
    (hA : ∀ w, dat.A w = Wi (Pipeline.arrRef cfg.spec w))
    (ho : Pipeline.arrRef cfg.spec wo = o) (hx : HEq (dat.arrAt wo cfg.N) x) (w : Fin cfg.W) :
    dat.arrAt w cfg.N = Function.update Wi (Proc.devRef .tc o) x (Pipeline.arrRef cfg.spec w) := by
  subst ho
  by_cases hw : w = wo
  · subst hw; exact (eq_of_heq hx).trans (Function.update_self (β := fun b : DevRef τ sig => b.ty.Contents (Elt F)) _ x Wi).symm
  · rw [dat.arrAt_in w (hin w hw) _, hA]
    exact (upd_ne Wi _ _ _ (hne w hw)).symm

/-- Off the region's arrays nothing changes. -/
theorem hrest_of {cfg : Pipeline.Cfg sig Λ₀} (Wi : Valuation τ sig (Elt F)) (wo : Fin cfg.W) (o : Ref sig .tc) (x)
    (ho : Pipeline.arrRef cfg.spec wo = o) (b : Ref sig .tc) (hb : b ∉ Finset.univ.image (Pipeline.arrRef cfg.spec)) :
    Function.update Wi (Proc.devRef .tc o) x b = Wi b :=
  upd_ne Wi o b _ fun e => hb (Finset.mem_image.mpr ⟨wo, Finset.mem_univ _, ho.trans e.symm⟩)

end Cert.KernelIdeal.Hand

end
-- ==== Proof.KiShare1.lean ====
import proofs.«135532_j46231027974388_1_alg».proof.Proof.KiBody1
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem image_arrRef1 : Finset.univ.image (Pipeline.arrRef spec1) = [main_v47, main_v34, main_v49, main_v50].toFinset := by decide

theorem arrRef1_0 : Pipeline.arrRef spec1 0 = main_v47 := rfl
theorem arrRef1_1 : Pipeline.arrRef spec1 1 = main_v34 := rfl
theorem arrRef1_2 : Pipeline.arrRef spec1 2 = main_v34 := rfl
theorem arrRef1_3 : Pipeline.arrRef spec1 3 = main_v49 := rfl
theorem arrRef1_4 : Pipeline.arrRef spec1 4 = main_v50 := rfl

theorem isOut1_0 : (cfg1.win 0).isOut = false := rfl
theorem isOut1_1 : (cfg1.win 1).isOut = false := rfl
theorem isOut1_2 : (cfg1.win 2).isOut = false := rfl
theorem isOut1_3 : (cfg1.win 3).isOut = false := rfl
theorem isOut1_4 : (cfg1.win 4).isOut = true := rfl

theorem share1_in (c : Dev nD) (dat : Dat τ (Elt F) Unit ℕ (UR sig nD τ) ℕ cfg1 c) (w : Fin cfg1.W) (h : (cfg1.win w).isOut = false) :
    dat.share w = dat.q w := by
  unfold Dat.share; rw [h]; rfl

theorem share1_out (c : Dev nD) (dat : Dat τ (Elt F) Unit ℕ (UR sig nD τ) ℕ cfg1 c) (w : Fin cfg1.W) (h : (cfg1.win w).isOut = true) :
    dat.share w = fullShare := by
  unfold Dat.share; rw [h]; rfl

theorem sep_eq1 {M : Type} [URA M] {P P' Q Q' : sProp M} (h1 : P = P') (h2 : Q = Q') : iprop(P ∗ Q) = iprop(P' ∗ Q') := by rw [h1, h2]

theorem bigSep_W1' {M : Type} [URA M] (Φ : Fin cfg1.W → sProp M) :
    bigSep Finset.univ Φ = iprop(Φ 0 ∗ Φ 1 ∗ Φ 2 ∗ Φ 3 ∗ Φ 4) := bigSep_W1 Φ

theorem arrays1_comp (c : Dev nD) (dat : Dat τ (Elt F) Unit ℕ (UR sig nD τ) ℕ cfg1 c)
    (Fn : (w : Fin cfg1.W) → Buf (Elt F) ((cfg1.win w).arr.view.loc (c : Thread nD τ)))
    (V : (b : Ref sig .tc) → Buf (Elt F) ((c : Thread nD τ).loc b)) (hF : ∀ w, Fn w = V (Pipeline.arrRef spec1 w))
    (w : Fin cfg1.W) (q : PosShare TreeShare) (hq : dat.share w = q) (b : Ref sig .tc) (hb : Pipeline.arrRef spec1 w = b) :
    (((cfg1.win w).arr.view.loc (c : Thread nD τ)) ↦[(cfg1.win w).arr.view.set]{dat.share w} Fn w : sProp 𝕄)
      = (((c : Thread nD τ).loc b) ↦{q} V b) := by
  rw [(arr_whole1 w).set_eq_univ, hq, hF w]; subst hb; rfl

theorem arrays1_at (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (Fn : (w : Fin cfg1.W) → Buf (Elt F) ((cfg1.win w).arr.view.loc (c : Thread nD τ)))
    (V : (b : Ref sig .tc) → Buf (Elt F) ((c : Thread nD τ).loc b)) (hF : ∀ w, Fn w = V (Pipeline.arrRef spec1 w)) :
    (dat.arrays Fn : sProp 𝕄) = iprop(
        (((c : Thread nD τ).loc main_v47) ↦{fullShare} V main_v47)
      ∗ (((c : Thread nD τ).loc main_v34) ↦{fullShare.left} V main_v34)
      ∗ (((c : Thread nD τ).loc main_v34) ↦{fullShare.right} V main_v34)
      ∗ (((c : Thread nD τ).loc main_v49) ↦{fullShare} V main_v49)
      ∗ (((c : Thread nD τ).loc main_v50) ↦{fullShare} V main_v50)) := by
  have h0 := arrays1_comp c dat Fn V hF 0 _ ((share1_in c dat 0 isOut1_0).trans hq0) _ arrRef1_0
  have h1 := arrays1_comp c dat Fn V hF 1 _ ((share1_in c dat 1 isOut1_1).trans hq1) _ arrRef1_1
  have h2 := arrays1_comp c dat Fn V hF 2 _ ((share1_in c dat 2 isOut1_2).trans hq2) _ arrRef1_2
  have h3 := arrays1_comp c dat Fn V hF 3 _ ((share1_in c dat 3 isOut1_3).trans hq3) _ arrRef1_3
  have h4 := arrays1_comp c dat Fn V hF 4 _ (share1_out c dat 4 isOut1_4) _ arrRef1_4
  unfold Dat.arrays
  refine (bigSep_W1' _).trans ?_
  exact sep_eq1 h0 (sep_eq1 h1 (sep_eq1 h2 (sep_eq1 h3 h4)))

theorem arrBufs1_eq (c : Dev nD) (V : (b : Ref sig .tc) → Buf (Elt F) ((c : Thread nD τ).loc b)) :
    (Pipeline.arrBufs spec1 c V : sProp 𝕄) = iprop(
        (((c : Thread nD τ).loc main_v47) ↦{fullShare} V main_v47)
      ∗ (((c : Thread nD τ).loc main_v34) ↦{fullShare} V main_v34)
      ∗ (((c : Thread nD τ).loc main_v49) ↦{fullShare} V main_v49)
      ∗ (((c : Thread nD τ).loc main_v50) ↦{fullShare} V main_v50)) := by
  unfold Pipeline.arrBufs
  exact bigSep_eq_bigSepL_of_eq [main_v47, main_v34, main_v49, main_v50] image_arrRef1 (by decide) _

theorem unscopedBufs_split1 (c : Dev nD) (V : (b : Ref sig .tc) → Buf (Elt F) ((c : Thread nD τ).loc b)) :
    (unscopedBufs c V : sProp 𝕄) = iprop(Pipeline.arrBufs spec1 c V ∗ Pipeline.unscopedRest spec1 c V) :=
  Pipeline.unscopedBufs_split₀ cfgs 1 winFacts₀1.arr_unscoped c V

theorem arrays_of_unscopedBufs1_of (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [unscopedBufs_split1 c V, arrBufs1_eq, arrays1_at c dat hq0 hq1 hq2 hq3 _ V (fun w => (rfl : dat.arrAt w 0 = dat.A w).trans (hA w))]
  refine sep_mono ?_ .rfl
  iintro ⟨H0, H1, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  iexact H4

theorem unscopedBufs_of_arrays1_of (c : Dev nD) (dat : Dat τ (Elt F) Unit ℕ (UR sig nD τ) ℕ cfg1 c)
    (hq0 : dat.q 0 = fullShare) (hq1 : dat.q 1 = fullShare.left) (hq2 : dat.q 2 = fullShare.right) (hq3 : dat.q 3 = fullShare)
    (V V' : (b : Ref sig .tc) → Buf (Elt F) ((c : Thread nD τ).loc b))
    (Fn : (w : Fin cfg1.W) → Buf (Elt F) ((cfg1.win w).arr.view.loc (c : Thread nD τ)))
    (hF : ∀ w, Fn w = V' (Pipeline.arrRef spec1 w))
    (hrest : ∀ b, b ∉ Finset.univ.image (Pipeline.arrRef spec1) → V' b = V b) :
    iprop(dat.arrays Fn ∗ Pipeline.unscopedRest spec1 c V) ⊢ (unscopedBufs c V' : sProp 𝕄) := by
  rw [unscopedBufs_split1 c V', arrBufs1_eq, arrays1_at c dat hq0 hq1 hq2 hq3 Fn V' hF]
  refine sep_mono ?_ (Entails.of_eq ?_)
  · iintro ⟨H0, H1l, H1r, H3, H4⟩
    isplitl [H0]; · iexact H0
    isplitl [H1l H1r]
    · iapply (pointsTo_share (PosShare.mem_left_op_right fullShare)).2
      isplitl [H1l]; · iexact H1l
      iexact H1r
    isplitl [H3]; · iexact H3
    iexact H4
  · unfold Pipeline.unscopedRest
    exact bigSep_congr fun b hb => by rw [hrest b (Finset.mem_sdiff.mp hb).2]

theorem q1_0 (V : (c : Dev nD) → (b : Ref sig .tc) → Buf (Elt F) ((c : Thread nD τ).loc b)) (c : Dev nD) : (dat1 V c).q 0 = fullShare := rfl
theorem q1_1 (V : (c : Dev nD) → (b : Ref sig .tc) → Buf (Elt F) ((c : Thread nD τ).loc b)) (c : Dev nD) : (dat1 V c).q 1 = fullShare.left := rfl
theorem q1_2 (V : (c : Dev nD) → (b : Ref sig .tc) → Buf (Elt F) ((c : Thread nD τ).loc b)) (c : Dev nD) : (dat1 V c).q 2 = fullShare.right := rfl
theorem q1_3 (V : (c : Dev nD) → (b : Ref sig .tc) → Buf (Elt F) ((c : Thread nD τ).loc b)) (c : Dev nD) : (dat1 V c).q 3 = fullShare := rfl

theorem arrays_of_unscopedBufs1 (V : (c : Dev nD) → (b : Ref sig .tc) → Buf (Elt F) ((c : Thread nD τ).loc b)) (c : Dev nD) :
    (unscopedBufs c (V c) : sProp 𝕄) ⊢ iprop((dat1 V c).arrays ((dat1 V c).arrAt · 0) ∗ Pipeline.unscopedRest spec1 c (V c)) :=
  arrays_of_unscopedBufs1_of c (dat1 V c) (q1_0 V c) (q1_1 V c) (q1_2 V c) (q1_3 V c) (V c) (A_eq1 V c)

theorem unscopedBufs_of_arrays1 (V : (c : Dev nD) → (b : Ref sig .tc) → Buf (Elt F) ((c : Thread nD τ).loc b)) (c : Dev nD)
    (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) :=
  unscopedBufs_of_arrays1_of c (dat1 V c) (q1_0 V c) (q1_1 V c) (q1_2 V c) (q1_3 V c) (V c) V' _ hF hrest

end Cert.KernelIdeal.Hand

end
-- ==== Proof.KiRegs.lean ====
import proofs.«135532_j46231027974388_1_alg».proof.Proof.KiRegC
import proofs.«135532_j46231027974388_1_alg».proof.Proof.KiShare1

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

def reg0 : Pipeline.RegionSeg (pcfgs (F := F)) adm (pdats m) () defs₀ 𝒱₀ L lv 0 :=
  regL m 0 0 1 launch0 (fun c => (body_obligation0 (tcv (W5 m)) c).loose)
    (V5 m) (V6 m (outs m)) (W5 m) (W6 m) (V5_eq m) (V6_eq m) (fun _ _ => rfl) (fun _ _ => rfl) (fun _ => rfl) (fun _ => rfl)
    (fun _ _ => rfl) (fun _ _ => rfl)
    (fun c => hF_of (dat0 (tcv (W5 m)) c) (W5 m c) 3 main_v34 (res0 m c) (by decide) (by decide) (A_eq0 _ c) rfl HEq.rfl)
    (fun c => hrest_of (cfg := cfg0) (W5 m c) 3 main_v34 (res0 m c) rfl)

def reg1 : Pipeline.RegionSeg (pcfgs (F := F)) adm (pdats m) () defs₀ 𝒱₀ L lv 1 :=
  regOf m 1 1 2 winFacts₀1 block_pos1 stage_whole1 (fun c => (body_obligation1 (tcv (W7 m)) c).loose)
    (V7 m (outs m)) (V8 m (outs m)) (W7 m) (W8 m) (V7_eq m) (V8_eq m) (fun _ _ => rfl) (fun _ _ => rfl) (fun _ => rfl) (fun _ => rfl)
    (arrays_of_unscopedBufs1 (tcv (W7 m)))
    (fun c => unscopedBufs_of_arrays1 (tcv (W7 m)) c (tcv (W8 m) c) (hF_of (dat1 (tcv (W7 m)) c) (W7 m c) 4 main_v50 (res1 m c) (by decide) (by decide) (A_eq1 _ c) rfl HEq.rfl) (hrest_of (cfg := cfg1) (W7 m c) 4 main_v50 (res1 m c) rfl))

def reg2 : Pipeline.RegionSeg (pcfgs (F := F)) adm (pdats m) () defs₀ 𝒱₀ L lv 2 :=
  regL m 2 2 3 launch2 (fun c => (body_obligation2 (tcv (W9 m)) c).loose)
    (V9 m (outs m)) (V10 m (outs m)) (W9 m) (W10 m) (V9_eq m) (V10_eq m) (fun _ _ => rfl) (fun _ _ => rfl) (fun _ => rfl) (fun _ => rfl)
    (fun _ _ => rfl) (fun _ _ => rfl)
    (fun c => hF_of (dat2 (tcv (W9 m)) c) (W9 m c) 4 main_v66 (res2 m c) (by decide) (by decide) (A_eq2 _ c) rfl HEq.rfl)
    (fun c => hrest_of (cfg := cfg2) (W9 m c) 4 main_v66 (res2 m c) rfl)

def reg3 : Pipeline.RegionSeg (pcfgs (F := F)) adm (pdats m) () defs₀ 𝒱₀ L lv 3 :=
  regL m 3 3 4 launch3 (fun c => (body_obligation3 (tcv (W11 m)) c).loose)
    (V11 m (outs m)) (V12 m (outs m)) (W11 m) (W12 m) (V11_eq m) (V12_eq m) (fun _ _ => rfl) (fun _ _ => rfl) (fun _ => rfl) (fun _ => rfl)
    (fun _ _ => rfl) (fun _ _ => rfl)
    (fun c => hF_of (dat3 (tcv (W11 m)) c) (W11 m c) 4 main_v82 (res3 m c) (by decide) (by decide) (A_eq3 _ c) rfl HEq.rfl)
    (fun c => hrest_of (cfg := cfg3) (W11 m c) 4 main_v82 (res3 m c) rfl)

def reg4 : Pipeline.RegionSeg (pcfgs (F := F)) adm (pdats m) () defs₀ 𝒱₀ L lv 4 :=
  regL m 4 4 5 launch4 (fun c => (body_obligation4 (tcv (W13 m)) c).loose)
    (V13 m (outs m)) (V14 m (outs m)) (W13 m) (W14 m) (V13_eq m) (V14_eq m) (fun _ _ => rfl) (fun _ _ => rfl) (fun _ => rfl) (fun _ => rfl)
    (fun _ _ => rfl) (fun _ _ => rfl)
    (fun c => hF_of (dat4 (tcv (W13 m)) c) (W13 m c) 4 main_v98 (res4 m c) (by decide) (by decide) (A_eq4 _ c) rfl HEq.rfl)
    (fun c => hrest_of (cfg := cfg4) (W13 m c) 4 main_v98 (res4 m c) rfl)

def reg5 : Pipeline.RegionSeg (pcfgs (F := F)) adm (pdats m) () defs₀ 𝒱₀ L lv 5 :=
  regL m 5 5 6 launch5 (fun c => (body_obligation5 (tcv (W15 m)) c).loose)
    (V15 m (outs m)) (V16 m (outs m)) (W15 m) (W16 m) (V15_eq m) (V16_eq m) (fun _ _ => rfl) (fun _ _ => rfl) (fun _ => rfl) (fun _ => rfl)
    (fun _ _ => rfl) (fun _ _ => rfl)
    (fun c => hF_of (dat5 (tcv (W15 m)) c) (W15 m c) 4 main_v114 (res5 m c) (by decide) (by decide) (A_eq5 _ c) rfl HEq.rfl)
    (fun c => hrest_of (cfg := cfg5) (W15 m c) 4 main_v114 (res5 m c) rfl)

def reg6 : Pipeline.RegionSeg (pcfgs (F := F)) adm (pdats m) () defs₀ 𝒱₀ L lv 6 :=
  regL m 6 6 7 launch6 (fun c => (body_obligation6 (tcv (W17 m)) c).loose)
    (V17 m (outs m)) (V18 m (outs m)) (W17 m) (W18 m) (V17_eq m) (V18_eq m) (fun _ _ => rfl) (fun _ _ => rfl) (fun _ => rfl) (fun _ => rfl)
    (fun _ _ => rfl) (fun _ _ => rfl)
    (fun c => hF_of (dat6 (tcv (W17 m)) c) (W17 m c) 4 main_v130 (res6 m c) (by decide) (by decide) (A_eq6 _ c) rfl HEq.rfl)
    (fun c => hrest_of (cfg := cfg6) (W17 m c) 4 main_v130 (res6 m c) rfl)

def reg7 : Pipeline.RegionSeg (pcfgs (F := F)) adm (pdats m) () defs₀ 𝒱₀ L lv 7 :=
  regL m 7 7 8 launch7 (fun c => (body_obligation7 (tcv (W19 m)) c).loose)
    (V19 m (outs m)) (V20 m (outs m)) (W19 m) (W20 m) (V19_eq m) (V20_eq m) (fun _ _ => rfl) (fun _ _ => rfl) (fun _ => rfl) (fun _ => rfl)
    (fun _ _ => rfl) (fun _ _ => rfl)
    (fun c => hF_of (dat7 (tcv (W19 m)) c) (W19 m c) 4 main_v146 (res7 m c) (by decide) (by decide) (A_eq7 _ c) rfl HEq.rfl)
    (fun c => hrest_of (cfg := cfg7) (W19 m c) 4 main_v146 (res7 m c) rfl)

def reg8 : Pipeline.RegionSeg (pcfgs (F := F)) adm (pdats m) () defs₀ 𝒱₀ L lv 8 :=
  regL m 8 8 9 launch8 (fun c => (body_obligation8 (tcv (W21 m)) c).loose)
    (V21 m (outs m)) (V22 m (outs m)) (W21 m) (W22 m) (V21_eq m) (V22_eq m) (fun _ _ => rfl) (fun _ _ => rfl) (fun _ => rfl) (fun _ => rfl)
    (fun _ _ => rfl) (fun _ _ => rfl)
    (fun c => hF_of (dat8 (tcv (W21 m)) c) (W21 m c) 4 main_v162 (res8 m c) (by decide) (by decide) (A_eq8 _ c) rfl HEq.rfl)
    (fun c => hrest_of (cfg := cfg8) (W21 m c) 4 main_v162 (res8 m c) rfl)

def reg9 : Pipeline.RegionSeg (pcfgs (F := F)) adm (pdats m) () defs₀ 𝒱₀ L lv 9 :=
  regL m 9 9 10 launch9 (fun c => (body_obligation9 (tcv (W22 m)) c).loose)
    (V22 m (outs m)) (V23 m (outs m)) (W22 m) (W23 m) (V22_eq m) (V23_eq m) (fun _ _ => rfl) (fun _ _ => rfl) (fun _ => rfl) (fun _ => rfl)
    (fun _ _ => rfl) (fun _ _ => rfl)
    (fun c => hF_of (dat9 (tcv (W22 m)) c) (W22 m c) 3 main_v163 (res9 m c) (by decide) (by decide) (A_eq9 _ c) rfl HEq.rfl)
    (fun c => hrest_of (cfg := cfg9) (W22 m c) 3 main_v163 (res9 m c) rfl)

end Cert.KernelIdeal.Hand

end
-- ==== Proof.KiFrame.lean ====
import proofs.«135532_j46231027974388_1_alg».proof.Proof.KiRegs

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

theorem hu_launch : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE_first : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have h : ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) : sProp 𝕄)
      ⊢ bigSep Finset.univ (E (F := F) 0) :=
    bigSep_mono fun c _ => by
      show (iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄)) : sProp 𝕄)
        ⊢ iprop((∃ r, prngReg c r) ∗ ∃ W, owes (c : Thread nD τ) (0 : CellTallies nD τ sig Unit) W)
      iintro ⟨-, HO, -, Hp, -⟩
      isplitl [Hp]; · iexists _; iexact Hp
      iexists ∅; iexact HO
  iintro ⟨H, -⟩
  imodintro
  iapply h
  iexact H

theorem hE_last (c : Dev nD) : E (F := F) 10 c ⊢ (iprop(∃ W, owes (c : Thread nD τ) (0 : CellTallies nD τ sig Unit) W) : sProp 𝕄) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond (F := F) m emb₁ () 𝒱₀ L lv (fun _ _ => rfl) ρ (outs m) (pdats m) 0 (fun _ => BI.emp)
    (initOf (Pipeline.cells cfgs cellOf_inj) (Pipeline.launchToks cfgs cellOf_inj)) hu_launch
    E (hE_first ρ) hE_last
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

end Cert.KernelIdeal.Hand

end
-- ==== Proof.KiRun.lean ====
import proofs.«135532_j46231027974388_1_alg».proof.Proof.KiFrame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

theorem run_main : θ_run defs (onTc (τ := τ) (main (F := F))) ⟨m, fun _ => 0, ρ⟩ (fun r => ∀ c : Dev nD,
      r.2.mem ((c.tc : Thread nD τ).loc main_v163) = V40 m (outs m) c main_v163
      ∧ r.2.mem ((c.tc : Thread nD τ).loc main_v211) = V40 m (outs m) c main_v211
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond (F := F) m emb₁ () 𝒱₀ L lv (fun _ _ => rfl) ρ (outs m) (pdats m) 0 (fun _ => BI.emp)
    (initOf (Pipeline.cells cfgs cellOf_inj) (Pipeline.launchToks cfgs cellOf_inj)) hu_launch
    E (hE_first ρ) hE_last
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

end Cert.KernelIdeal.Hand

end
-- ==== Proof.RefSpec.lean ====
import proofs.«135532_j46231027974388_1_alg».proof.Proof.Gen.ReferenceIdeal

noncomputable section

namespace Cert.ReferenceIdeal.Spec

open Cert.ReferenceIdeal Idealize.ShloMosaic Idealize.SL.Sem

variable {F : FTy → Type} [FloatOps F]
variable [Facts]
open Facts₀ Facts

def src (ei : IVec S2x1200000 32) : IVec S1200000 32 :=
  shapeCast S1200000 (extractStridedSlice S1x1200000 ![0, 0] ei slices_S2x1200000_S1x1200000_0_0)
    shapeCasts_S1x1200000_S1200000

def dst (ei : IVec S2x1200000 32) : IVec S1200000 32 :=
  shapeCast S1200000 (extractStridedSlice S1x1200000 ![1, 0] ei slices_S2x1200000_S1x1200000_1_0)
    shapeCasts_S1x1200000_S1200000

def wrap (i : IVec S1200000 32) : IVec S1200000x1 32 :=
  broadcastInDim S1200000x1 ![0] bcast_S1200000_S1200000x1_0
    (select
      (cmpi .slt i (broadcastInDim S1200000 ![] bcast_S_S1200000 (constantI S_ 32 0#32)))
      (addi i (broadcastInDim S1200000 ![] bcast_S_S1200000 (constantI S_ 32 100000#32)))
      i)

def deg (ei : IVec S2x1200000 32) (ew : FVec F S1200000 .f32) : FVec F S100000 .f32 :=
  Host.scatterAdd scatter_S100000_S1200000x1_S1200000_n_0_0_1
    (broadcastInDim S100000 ![] bcast_S_S100000 (constant (F := F) S_ .f32 0x00000000#32))
    (broadcastInDim S1200000x1 ![0] bcast_S1200000_S1200000x1_0 (src ei))
    ew

def dinv (ei : IVec S2x1200000 32) (ew : FVec F S1200000 .f32) : FVec F S100000 .f32 :=
  select
    (cmpf .ogt (deg ei ew) (broadcastInDim S100000 ![] bcast_S_S100000 (constant (F := F) S_ .f32 0x00000000#32)))
    (Host.rsqrt
      (select
        (cmpf .ogt (deg ei ew) (broadcastInDim S100000 ![] bcast_S_S100000 (constant (F := F) S_ .f32 0x00000000#32)))
        (deg ei ew)
        (broadcastInDim S100000 ![] bcast_S_S100000 (id (constant (F := F) S_ .f32 0x3F800000#32)))))
    (broadcastInDim S100000 ![] bcast_S_S100000 (id (constant (F := F) S_ .f32 0x00000000#32)))

def norm (ei : IVec S2x1200000 32) (ew : FVec F S1200000 .f32) : FVec F S1200000 .f32 :=
  mulf
    (mulf (Host.gather gather_S100000_S1200000x1_S1200000_n_0_n_n_0_1_1 (dinv ei ew) (wrap (src ei))) ew)
    (Host.gather gather_S100000_S1200000x1_S1200000_n_0_n_n_0_1_1 (dinv ei ew) (wrap (dst ei)))

def relu (z : FVec F S100000x64 .f32) : FVec F S100000x64 .f32 :=
  maximumf z (broadcastInDim S100000x64 ![] bcast_S_S100000x64 (constant (F := F) S_ .f32 0x00000000#32))

def proj (x : FVec F S100000x256 .f32) (w : FVec F S256x64 .f32) (b : FVec F S64 .f32) :
    FVec F S100000x64 .f32 :=
  relu
    (addf
      (Host.dotGeneral dot_S100000x256_S256x64_S100000x64_1_0_0_1_n_n none x w)
      (broadcastInDim S100000x64 ![0, 1] bcast_S1x64_S100000x64_0_1
        (broadcastInDim S1x64 ![1] bcast_S64_S1x64_1 b)))

def agg (nrm : FVec F S1200000 .f32) (ei : IVec S2x1200000 32) (h : FVec F S100000x64 .f32) :
    FVec F S100000x64 .f32 :=
  Host.scatterAdd scatter_S100000x64_S1200000x1_S1200000x64_1_0_0_1
    (broadcastInDim S100000x64 ![] bcast_S_S100000x64 (constant (F := F) S_ .f32 0x00000000#32))
    (broadcastInDim S1200000x1 ![0] bcast_S1200000_S1200000x1_0 (dst ei))
    (mulf
      (broadcastInDim S1200000x64 ![0, 1] bcast_S1200000x1_S1200000x64_0_1
        (broadcastInDim S1200000x1 ![0] bcast_S1200000_S1200000x1_0 nrm))
      (Host.gather gather_S100000x64_S1200000x1_S1200000x64_1_0_n_n_0_1_164 h (wrap (src ei))))

def wsl0 (gw : FVec F S8x64x64 .f32) : FVec F S64x64 .f32 :=
  shapeCast S64x64 (extractStridedSlice S1x64x64 ![0, 0, 0] gw slices_S8x64x64_S1x64x64_0_0_0) shapeCasts_S1x64x64_S64x64
def wsl1 (gw : FVec F S8x64x64 .f32) : FVec F S64x64 .f32 :=
  shapeCast S64x64 (extractStridedSlice S1x64x64 ![1, 0, 0] gw slices_S8x64x64_S1x64x64_1_0_0) shapeCasts_S1x64x64_S64x64
def wsl2 (gw : FVec F S8x64x64 .f32) : FVec F S64x64 .f32 :=
  shapeCast S64x64 (extractStridedSlice S1x64x64 ![2, 0, 0] gw slices_S8x64x64_S1x64x64_2_0_0) shapeCasts_S1x64x64_S64x64
def wsl3 (gw : FVec F S8x64x64 .f32) : FVec F S64x64 .f32 :=
  shapeCast S64x64 (extractStridedSlice S1x64x64 ![3, 0, 0] gw slices_S8x64x64_S1x64x64_3_0_0) shapeCasts_S1x64x64_S64x64
def wsl4 (gw : FVec F S8x64x64 .f32) : FVec F S64x64 .f32 :=
  shapeCast S64x64 (extractStridedSlice S1x64x64 ![4, 0, 0] gw slices_S8x64x64_S1x64x64_4_0_0) shapeCasts_S1x64x64_S64x64
def wsl5 (gw : FVec F S8x64x64 .f32) : FVec F S64x64 .f32 :=
  shapeCast S64x64 (extractStridedSlice S1x64x64 ![5, 0, 0] gw slices_S8x64x64_S1x64x64_5_0_0) shapeCasts_S1x64x64_S64x64
def wsl6 (gw : FVec F S8x64x64 .f32) : FVec F S64x64 .f32 :=
  shapeCast S64x64 (extractStridedSlice S1x64x64 ![6, 0, 0] gw slices_S8x64x64_S1x64x64_6_0_0) shapeCasts_S1x64x64_S64x64
def wsl7 (gw : FVec F S8x64x64 .f32) : FVec F S64x64 .f32 :=
  shapeCast S64x64 (extractStridedSlice S1x64x64 ![7, 0, 0] gw slices_S8x64x64_S1x64x64_7_0_0) shapeCasts_S1x64x64_S64x64

def layer (a h h0 : FVec F S100000x64 .f32) (w : FVec F S64x64 .f32) : FVec F S100000x64 .f32 :=
  relu
    (Host.dotGeneral dot_S100000x64_S64x64_S100000x64_1_0_0_1_n_n none
      (addf
        (addf
          (mulf (broadcastInDim S100000x64 ![] bcast_S_S100000x64 (constant (F := F) S_ .f32 0x3F4CCCCD#32)) a)
          (mulf (broadcastInDim S100000x64 ![] bcast_S_S100000x64 (constant (F := F) S_ .f32 0x3DCCCCCD#32)) h))
        (mulf (broadcastInDim S100000x64 ![] bcast_S_S100000x64 (constant (F := F) S_ .f32 0x3DCCCCCD#32)) h0))
      w)

def logSoftmax (z : FVec F S100000x40 .f32) : FVec F S100000x40 .f32 :=
  subf
    (subf z
      (broadcastInDim S100000x40 ![0, 1] bcast_S100000x1_S100000x40_0_1
        (broadcastInDim S100000x1 ![0] bcast_S100000_S100000x1_0
          (maximumf
            (broadcastInDim S100000 ![] bcast_S_S100000 (constant (F := F) S_ .f32 0xFF800000#32))
            (Host.reduce FloatOps.maximumf z (constant (F := F) S_ .f32 0xFF800000#32)
              reducesTo_S100000x40_S100000_d1 h_S_)))))
    (broadcastInDim S100000x40 ![0, 1] bcast_S100000x1_S100000x40_0_1
      (Host.log
        (broadcastInDim S100000x1 ![0] bcast_S100000_S100000x1_0
          (Host.reduceAdd
            (Host.exp
              (subf z
                (broadcastInDim S100000x40 ![0, 1] bcast_S100000x1_S100000x40_0_1
                  (broadcastInDim S100000x1 ![0] bcast_S100000_S100000x1_0
                    (maximumf
                      (broadcastInDim S100000 ![] bcast_S_S100000 (constant (F := F) S_ .f32 0xFF800000#32))
                      (Host.reduce FloatOps.maximumf z (constant (F := F) S_ .f32 0xFF800000#32)
                        reducesTo_S100000x40_S100000_d1 h_S_))))))
            (constant (F := F) S_ .f32 0x00000000#32)
            reducesTo_S100000x40_S100000_d1 h_S_))))

def logits (h : FVec F S100000x64 .f32) (w : FVec F S64x40 .f32) (b : FVec F S40 .f32) :
    FVec F S100000x40 .f32 :=
  logSoftmax
    (addf
      (Host.dotGeneral dot_S100000x64_S64x40_S100000x40_1_0_0_1_n_n none h w)
      (broadcastInDim S100000x40 ![0, 1] bcast_S1x40_S100000x40_0_1
        (broadcastInDim S1x40 ![1] bcast_S40_S1x40_1 b)))

def eye : FVec F S64x64 .f32 :=
  uitofp (F := F) .f32
    (cmpi .eq
      (addi (iotaInDim S64x64 32 0) (broadcastInDim S64x64 ![] bcast_S_S64x64 (constantI S_ 32 0#32)))
      (iotaInDim S64x64 32 1))

def fro (a : FVec F S64x64 .f32) : FVec F S_ .f32 :=
  Host.sqrt (Host.reduceAdd (mulf a a) (constant (F := F) S_ .f32 0x00000000#32) reducesTo_S64x64_S_d0_1 h_S_)

def lconstr (gw : FVec F S8x64x64 .f32) : FVec F S_ .f32 :=
  mulf (constant (F := F) S_ .f32 0x3F800000#32)
    (addf (addf (addf (addf (addf (addf (addf
      (fro (subf (wsl0 gw)
        (mulf (eye (F := F)) (broadcastInDim S64x64 ![] bcast_S_S64x64 (constant (F := F) S_ .f32 0x3F800000#32)))))
      (fro (subf (wsl1 gw) (eye (F := F)))))
      (fro (subf (wsl2 gw) (eye (F := F)))))
      (fro (subf (wsl3 gw) (eye (F := F)))))
      (fro (subf (wsl4 gw) (eye (F := F)))))
      (fro (subf (wsl5 gw) (eye (F := F)))))
      (fro (subf (wsl6 gw) (eye (F := F)))))
      (fro (subf (wsl7 gw) (eye (F := F)))))

section Net

variable (x : FVec F S100000x256 .f32) (ei : IVec S2x1200000 32) (ew : FVec F S1200000 .f32)
  (win : FVec F S256x64 .f32) (bin : FVec F S64 .f32) (gw : FVec F S8x64x64 .f32)

def h0 : FVec F S100000x64 .f32 := proj x win bin

def h1 : FVec F S100000x64 .f32 :=
  layer (agg (norm ei ew) ei (h0 x win bin)) (h0 x win bin) (h0 x win bin) (wsl0 gw)
def h2 : FVec F S100000x64 .f32 :=
  layer (agg (norm ei ew) ei (h1 x ei ew win bin gw)) (h1 x ei ew win bin gw) (h0 x win bin) (wsl1 gw)
def h3 : FVec F S100000x64 .f32 :=
  layer (agg (norm ei ew) ei (h2 x ei ew win bin gw)) (h2 x ei ew win bin gw) (h0 x win bin) (wsl2 gw)
def h4 : FVec F S100000x64 .f32 :=
  layer (agg (norm ei ew) ei (h3 x ei ew win bin gw)) (h3 x ei ew win bin gw) (h0 x win bin) (wsl3 gw)
def h5 : FVec F S100000x64 .f32 :=
  layer (agg (norm ei ew) ei (h4 x ei ew win bin gw)) (h4 x ei ew win bin gw) (h0 x win bin) (wsl4 gw)
def h6 : FVec F S100000x64 .f32 :=
  layer (agg (norm ei ew) ei (h5 x ei ew win bin gw)) (h5 x ei ew win bin gw) (h0 x win bin) (wsl5 gw)
def h7 : FVec F S100000x64 .f32 :=
  layer (agg (norm ei ew) ei (h6 x ei ew win bin gw)) (h6 x ei ew win bin gw) (h0 x win bin) (wsl6 gw)
def h8 : FVec F S100000x64 .f32 :=
  layer (agg (norm ei ew) ei (h7 x ei ew win bin gw)) (h7 x ei ew win bin gw) (h0 x win bin) (wsl7 gw)

def y (wout : FVec F S64x40 .f32) (bout : FVec F S40 .f32) : FVec F S100000x40 .f32 :=
  logits (h8 x ei ew win bin gw) wout bout

end Net

end Cert.ReferenceIdeal.Spec

end
-- ==== Proof.KiHost.lean ====
import proofs.«135532_j46231027974388_1_alg».proof.Proof.RegionsKI
import proofs.«135532_j46231027974388_1_alg».proof.Proof.RefSpec

noncomputable section

namespace Cert.KernelIdeal.Hand

open Cert.KernelIdeal Cert.KernelIdeal.Gen
open Idealize.ShloMosaic Idealize.ShloMosaic.TcCoe
open Idealize.SL Idealize.SL.Sem
open Cert.ReferenceIdeal (Spec.src Spec.dst Spec.norm Spec.eye Spec.fro Spec.lconstr
  Spec.wsl0 Spec.wsl1 Spec.wsl2 Spec.wsl3 Spec.wsl4 Spec.wsl5 Spec.wsl6 Spec.wsl7)

variable {F : FTy → Type} [FloatOps F]

abbrev a0 (m : (ℓ : Loc nD τ sig) → Buf (Elt F) ℓ) (c : Dev nD) := m ((c : Thread nD τ).loc main_arg0)
abbrev a1 (m : (ℓ : Loc nD τ sig) → Buf (Elt F) ℓ) (c : Dev nD) := m ((c : Thread nD τ).loc main_arg1)
abbrev a2 (m : (ℓ : Loc nD τ sig) → Buf (Elt F) ℓ) (c : Dev nD) := m ((c : Thread nD τ).loc main_arg2)
abbrev a3 (m : (ℓ : Loc nD τ sig) → Buf (Elt F) ℓ) (c : Dev nD) := m ((c : Thread nD τ).loc main_arg3)
abbrev a4 (m : (ℓ : Loc nD τ sig) → Buf (Elt F) ℓ) (c : Dev nD) := m ((c : Thread nD τ).loc main_arg4)
abbrev a5 (m : (ℓ : Loc nD τ sig) → Buf (Elt F) ℓ) (c : Dev nD) := m ((c : Thread nD τ).loc main_arg5)
abbrev a6 (m : (ℓ : Loc nD τ sig) → Buf (Elt F) ℓ) (c : Dev nD) := m ((c : Thread nD τ).loc main_arg6)
abbrev a7 (m : (ℓ : Loc nD τ sig) → Buf (Elt F) ℓ) (c : Dev nD) := m ((c : Thread nD τ).loc main_arg7)

variable (m : (ℓ : Loc nD τ sig) → Buf (Elt F) ℓ) (c : Dev nD)

theorem host_src : V5 m c main_v1 = Spec.src (a1 m c) := by
  after_results_simp
  rfl

theorem host_dst : V5 m c main_v3 = Spec.dst (a1 m c) := by
  after_results_simp
  rfl

theorem host_norm : V5 m c main_v33 = Spec.norm (a1 m c) (a2 m c) := by
  after_results_simp
  rfl

section Tail

variable (W : Valuation τ sig (Elt F))

/-- The first nine closing stretches: the identity matrix, the first four distances summed, the fifth difference. -/
abbrev tailA : Valuation τ sig (Elt F) := StableHlo.after hostOps10_8 (StableHlo.after hostOps10_7 (StableHlo.after hostOps10_6 (StableHlo.after hostOps10_5 (StableHlo.after hostOps10_4 (StableHlo.after hostOps10_3 (StableHlo.after hostOps10_2 (StableHlo.after hostOps10_1 (StableHlo.after hostOps10 W))))))))

theorem tailA_sum : tailA W main_v190 = addf (addf (addf (Spec.fro (subf (Spec.wsl0 (W main_arg5)) (mulf (Spec.eye (F := F)) (broadcastInDim S64x64 ![] bcast_S_S64x64 (constant (F := F) S_ .f32 0x3F800000#32))))) (Spec.fro (subf (Spec.wsl1 (W main_arg5)) (Spec.eye (F := F))))) (Spec.fro (subf (Spec.wsl2 (W main_arg5)) (Spec.eye (F := F))))) (Spec.fro (subf (Spec.wsl3 (W main_arg5)) (Spec.eye (F := F)))) := by
  after_results_simp
  rfl

theorem tailA_diff : tailA W main_v193 = subf (Spec.wsl4 (W main_arg5)) (Spec.eye (F := F)) := by
  after_results_simp
  rfl

theorem tailA_eye : tailA W main_v169 = Spec.eye (F := F) := by
  after_results_simp
  rfl

theorem tailA_arg5 : tailA W main_arg5 = W main_arg5 := by
  after_results_simp

theorem tailB_sum : StableHlo.after hostOps10_16 (StableHlo.after hostOps10_15 (StableHlo.after hostOps10_14 (StableHlo.after hostOps10_13 (StableHlo.after hostOps10_12 (StableHlo.after hostOps10_11 (StableHlo.after hostOps10_10 (StableHlo.after hostOps10_9 W))))))) main_v211 = mulf (constant (F := F) S_ .f32 0x3F800000#32) (addf (addf (addf (addf (W main_v190) (Spec.fro (W main_v193))) (Spec.fro (subf (Spec.wsl5 (W main_arg5)) (W main_v169)))) (Spec.fro (subf (Spec.wsl6 (W main_arg5)) (W main_v169)))) (Spec.fro (subf (Spec.wsl7 (W main_arg5)) (W main_v169)))) := by
  after_results_simp
  rfl

end Tail

/-- The closing host operations sum the eight distances to the identity; they read the stacked weights only. -/
theorem host_lconstr (outs : Outs (F := F)) (h : V23 m outs c main_arg5 = a5 m c) :
    V40 m outs c main_v211 = Spec.lconstr (a5 m c) := by
  refine (tailB_sum (tailA (V23 m outs c))).trans ?_
  rw [tailA_sum, tailA_diff, tailA_eye, tailA_arg5, h]
  rfl

end Cert.KernelIdeal.Hand

end
-- ==== Proof.KiLayerMath.lean ====
import proofs.«135532_j46231027974388_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- A rows-by-columns product's sum over its contraction index pairs (r, k) of the left operand with (k, c) of the right. -/
theorem plain_sum {M K N : ℕ} {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg l (Shape.idx_ext₂ rfl hk)) (congrArg r (Shape.idx_ext₂ hk rfl))

/-- Entry (p, q) of the layer body's block is the clamped sum over k of the mixed features of row p against column q of the weight. -/
theorem pay_apply (v0 v4 v9 : Vec Ideal S2000x64 .f32) (v15 : Vec Ideal S64x64 .f32) (p : Fin 2000) (q : Fin 64) :
    k2_pay1 (F := Ideal) v0 v4 v9 v15 (ix2 p q)
      = max (∑ k : Fin 64, ((Ideal.ofBits .f32 0x3F4CCCCD#32 * v0 (ix2 p k) + Ideal.ofBits .f32 0x3DCCCCCD#32 * v4 (ix2 p k))
              + Ideal.ofBits .f32 0x3DCCCCCD#32 * v9 (ix2 p k)) * v15 (ix2 k q))
          (Ideal.ofBits .f32 0x00000000#32) := by
  simp only [k2_pay1, maximumf_apply, matmul]
  rw [Ideal.matmul_constant_zero_apply, plain_sum dot_S2000x64_S64x64_S2000x64_1_0_0_1_n_n rfl]
  simp only [shapeCast_self]
  rfl

end Cert.KernelIdeal.Hand

end
-- ==== Proof.KiLayerRef.lean ====
import proofs.«135532_j46231027974388_1_alg».proof.Proof.RefSpec
import proofs.«135532_j46231027974388_1_alg».proof.Proof.KiLayerMath

noncomputable section

namespace Cert.ReferenceIdeal.Hand

open Cert.ReferenceIdeal
open Idealize.ShloMosaic Idealize.ShloMosaic.ValueIdx

/-- Entry `i` of the reference's layer is the same clamped sum along row `i 0` of the features and column `i 1` of the weight. -/
theorem layer_apply (a h h0 : FVec Ideal S100000x64 .f32) (w : FVec Ideal S64x64 .f32) (i : S100000x64.Idx) :
    Spec.layer (F := Ideal) a h h0 w i
      = max (∑ k : Fin 64, ((Ideal.ofBits .f32 0x3F4CCCCD#32 * a (ix2 (i 0) k) + Ideal.ofBits .f32 0x3DCCCCCD#32 * h (ix2 (i 0) k))
              + Ideal.ofBits .f32 0x3DCCCCCD#32 * h0 (ix2 (i 0) k)) * w (ix2 k (i 1)))
          (Ideal.ofBits .f32 0x00000000#32) := by
  unfold Spec.layer Spec.relu
  refine (maximumf_apply _ _ i).trans ?_
  simp only [Host.dotGeneral]
  rw [Ideal.dotGeneral_apply, Cert.KernelIdeal.Hand.plain_sum dot_S100000x64_S64x64_S100000x64_1_0_0_1_n_n rfl]
  rfl

end Cert.ReferenceIdeal.Hand

end
-- ==== Proof.KiLayerVal.lean ====
import proofs.«135532_j46231027974388_1_alg».proof.Proof.KiLayerBody
import proofs.«135532_j46231027974388_1_alg».proof.Proof.KiLayerRef
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window)

theorem hz : (![0, 0] : Fin 2 → Nat) = fun _ => 0 := funext fun a => by fin_cases a <;> rfl

/-- The body's one store, of the payload of its four whole-block loads over the whole block, is the payload of the four blocks. -/
theorem out_eq_pay {F : FTy → Type} [FloatOps F] (x0 x1 x2 : Vec F S2000x64 .f32) (x3 : Vec F S64x64 .f32) :
    outL_4 x0 x1 x2 x3 = k2_pay1 x0 x1 x2 x3 := by
  unfold outL_4
  rw [View.canon_unit_zero hz]
  simp only [View.ld_unit_zero (S := S2000x64) hz, View.ld_unit_zero (S := S64x64) hz]

/-- The payload of the four arrays read through a point's rectangles is the reference's layer read through the output's: a block row is an array row, and the columns and the weight have one block. -/
theorem layer_flushed (a h h0 : Vec Ideal S100000x64 .f32) (w : Vec Ideal S64x64 .f32) (t : Fin cfg2.N) :
    outL_4 (fun x => a ((win2_4.rect t).emb x)) (fun x => h ((win2_4.rect t).emb x)) (fun x => h0 ((win2_4.rect t).emb x))
        (fun x => w ((win2_3.rect t).emb x))
      = fun j => Cert.ReferenceIdeal.Spec.layer (F := Ideal) a h h0 w ((win2_4.rect t).emb j) := by
  funext j
  obtain ⟨p, q, rfl⟩ : ∃ (p : Fin 2000) (q : Fin 64), j = ix2 p q := ⟨j 0, j 1, eq_ix2 j⟩
  rw [out_eq_pay, pay_apply, Cert.ReferenceIdeal.Hand.layer_apply]
  refine congrArg (fun s => max s (Ideal.ofBits .f32 0x00000000#32)) (Finset.sum_congr rfl fun k _ => ?_)
  rw [show (win2_4.rect t).emb (ix2 p k) = ix2 ((win2_4.rect t).emb (ix2 p q) 0) k from
      Shape.idx_ext₂ rfl ((win2_4.rect_emb_val_of_index_zero t 1 rfl _).trans rfl),
    show (win2_3.rect t).emb (ix2 k q) = ix2 k ((win2_4.rect t).emb (ix2 p q) 1) from
      Shape.idx_ext₂ ((win2_3.rect_emb_val_of_index_zero t 0 rfl _).trans rfl)
        ((win2_3.rect_emb_val_of_index_zero t 1 rfl _).trans (win2_4.rect_emb_val_of_index_zero t 1 rfl (ix2 p q)).symm)]
  rfl

/-- The output's index map sends point `t` to row block `t`. -/
theorem idx_out : ∀ t : Fin cfg2.N, win2_4.index t 0 = t.val := (by decide +kernel : ∀ t : Fin grid2.N, _)

/-- The output's blocks cover its array: row `r` is in the block of point `r / 2000`. -/
theorem layer_cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have ht : (i 0).val / 2000 < cfg2.N := by rw [show cfg2.N = 50 from N_2]; omega
  have e0 : win2_4.index ⟨_, ht⟩ 0 = (i 0).val / 2000 := idx_out ⟨_, ht⟩
  refine ⟨⟨_, ht⟩, flush2_4 _, ?_⟩
  show i ∈ ((View.whole (Pipeline.arrRef spec2 4)).slice (win2_4.rect ⟨_, ht⟩)).set
  rw [View.set_slice_whole, Rect.mem_set_unit]
  refine Fin.forall_fin_two.mpr ⟨?_, ?_⟩
  · show win2_4.index ⟨_, ht⟩ 0 * 2000 ≤ (i 0).val ∧ (i 0).val < win2_4.index ⟨_, ht⟩ 0 * 2000 + 2000
    rw [e0]; omega
  · show 0 * 64 ≤ (i 1).val ∧ (i 1).val < 0 * 64 + 64
    omega

end Cert.KernelIdeal.Hand

end
-- ==== Proof.KiVal0.lean ====
import proofs.«135532_j46231027974388_1_alg».proof.Proof.KiBody0
import proofs.«135532_j46231027974388_1_alg».proof.Proof.KiLayerVal
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Window)
open Idealize.SL.Sem

/-- Entry (p, q) of the projection body's block: row p of the input against column q of the weight, plus the bias at q, clamped at zero. -/
theorem projPay_apply (x0 : Vec Ideal S2000x256 .f32) (x1 : Vec Ideal S256x64 .f32) (x2 : Vec Ideal S64 .f32) (p : Fin 2000) (q : Fin 64) :
    k0_pay1 (F := Ideal) x0 x1 x2 (ix2 p q)
      = max ((∑ k : Fin 256, x0 (ix2 p k) * x1 (ix2 k q)) + x2 (ix1 q)) (Ideal.ofBits .f32 0x00000000#32) := by
  simp only [k0_pay1, maximumf_apply, addf_apply, matmul]
  rw [Ideal.matmul_constant_zero_apply, plain_sum dot_S2000x256_S256x64_S2000x64_1_0_0_1_n_n rfl, broadcastTo_1b_ab_apply,
    shapeCast_a_1a_apply]
  rfl

/-- A vector broadcast to one row and then down the rows reads, at (r, c), the vector at c. -/
theorem bcast_bias_apply {α : Type} {a b : ℕ} (h1 : (⟨2, ![1, b]⟩ : Shape).BroadcastsInDim ⟨2, ![a, b]⟩ ![0, 1])
    (h2 : (⟨1, ![b]⟩ : Shape).BroadcastsInDim ⟨2, ![1, b]⟩ ![1]) (x : (⟨1, ![b]⟩ : Shape).Idx → α) (i : (⟨2, ![a, b]⟩ : Shape).Idx) :
    broadcastInDim ⟨2, ![a, b]⟩ ![0, 1] h1 (broadcastInDim ⟨2, ![1, b]⟩ ![1] h2 x) i = x (ix1 (i 1)) := by
  have hi : (i 1).val < b := (i 1).isLt
  have hb : (i 1).val = if b = 1 then 0 else (i 1).val := by split <;> omega
  exact (broadcastInDim_apply _ h1 _ i (ix2 (0 : Fin 1) (i 1)) (fun ax => by
    match ax with
    | ⟨0, _⟩ => exact (if_pos rfl).symm
    | ⟨1, _⟩ => exact hb)).trans
    (broadcastInDim_apply _ h2 x _ (ix1 (i 1)) (fun ax => by
      match ax with
      | ⟨0, _⟩ => exact hb))

/-- Entry `i` of the reference's projection is the same clamped sum along row `i 0` and column `i 1`. -/
theorem proj_apply (x : FVec Ideal Cert.ReferenceIdeal.S100000x256 .f32) (w : FVec Ideal Cert.ReferenceIdeal.S256x64 .f32)
    (b : FVec Ideal Cert.ReferenceIdeal.S64 .f32) (i : Cert.ReferenceIdeal.S100000x64.Idx) :
    Cert.ReferenceIdeal.Spec.proj (F := Ideal) x w b i
      = max ((∑ k : Fin 256, x (ix2 (i 0) k) * w (ix2 k (i 1))) + b (ix1 (i 1))) (Ideal.ofBits .f32 0x00000000#32) := by
  unfold Cert.ReferenceIdeal.Spec.proj Cert.ReferenceIdeal.Spec.relu
  refine (maximumf_apply _ _ i).trans ?_
  simp only [addf_apply, Host.dotGeneral]
  rw [Ideal.dotGeneral_apply, plain_sum Cert.ReferenceIdeal.dot_S100000x256_S256x64_S100000x64_1_0_0_1_n_n rfl, bcast_bias_apply]
  rfl

theorem hz1 : (![0] : Fin 1 → Nat) = fun _ => 0 := funext fun a => by fin_cases a; rfl

/-- The payload of the three arrays read through a point's rectangles is the reference's projection read through the output's: a block row is an array row, and the columns, the weight and the bias have one block. -/
theorem proj_flushed (x : Vec Ideal S100000x256 .f32) (w : Vec Ideal S256x64 .f32) (b : Vec Ideal S64 .f32) (t : Fin cfg0.N) :
    out0_3 (fun y => x ((win0_0.rect t).emb y)) (fun y => w ((win0_1.rect t).emb y)) (fun y => b ((win0_2.rect t).emb y))
      = fun j => Cert.ReferenceIdeal.Spec.proj (F := Ideal) x w b ((win0_3.rect t).emb j) := by
  funext j
  obtain ⟨p, q, rfl⟩ : ∃ (p : Fin 2000) (q : Fin 64), j = ix2 p q := ⟨j 0, j 1, eq_ix2 j⟩
  unfold out0_3
  rw [View.canon_unit_zero hz]
  simp only [View.ld_unit_zero (S := S2000x256) hz, View.ld_unit_zero (S := S256x64) hz, View.ld_unit_zero (S := S64) hz1]
  rw [projPay_apply, proj_apply,
    show (win0_2.rect t).emb (ix1 q) = ix1 ((win0_3.rect t).emb (ix2 p q) 1) from funext fun a => Fin.ext (by
      match a with
      | ⟨0, _⟩ => exact (win0_2.rect_emb_val_of_index_zero t 0 rfl _).trans (win0_3.rect_emb_val_of_index_zero t 1 rfl (ix2 p q)).symm)]
  refine congrArg (fun s => max (s + _) (Ideal.ofBits .f32 0x00000000#32)) (Finset.sum_congr rfl fun k _ => ?_)
  rw [show (win0_0.rect t).emb (ix2 p k) = ix2 ((win0_3.rect t).emb (ix2 p q) 0) k from
      Shape.idx_ext₂ rfl ((win0_0.rect_emb_val_of_index_zero t 1 rfl _).trans rfl),
    show (win0_1.rect t).emb (ix2 k q) = ix2 k ((win0_3.rect t).emb (ix2 p q) 1) from
      Shape.idx_ext₂ ((win0_1.rect_emb_val_of_index_zero t 0 rfl _).trans rfl)
        ((win0_1.rect_emb_val_of_index_zero t 1 rfl _).trans (win0_3.rect_emb_val_of_index_zero t 1 rfl (ix2 p q)).symm)]
  rfl

variable (V : (c : Dev nD) → (b : Ref sig .tc) → Buf (Elt Ideal) ((c : Thread nD τ).loc b))

/-- At every point the output block is that block of the reference's projection of the three arrays, and the blocks cover the output as the layers' do. -/
theorem final0 (c : Dev nD) :
    (dat0 (F := Ideal) V c).arrAt 3 cfg0.N = Cert.ReferenceIdeal.Spec.proj (F := Ideal) (V c main_arg0) (V c main_arg3) (V c main_arg4) :=
  (dat0 (F := Ideal) V c).arrAt_eq_of_cover 3 _ (fun t _ => (congrArg _ (after0_3 V c t)).trans (proj_flushed _ _ _ t)) layer_cover

end Cert.KernelIdeal.Hand

end
-- ==== Proof.KiVal1.lean ====
import proofs.«135532_j46231027974388_1_alg».proof.Proof.KiBody1
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final1 (c : Dev nD) :
    (dat1 (F := Ideal) V c).arrAt 4 cfg1.N
      = Cert.ReferenceIdeal.Spec.layer (F := Ideal) (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => (congrArg _ (after1_4 V c t)).trans (layer_flushed _ _ _ _ t)) layer_cover

end Cert.KernelIdeal.Hand

end
-- ==== Proof.KiVal2.lean ====
import proofs.«135532_j46231027974388_1_alg».proof.Proof.KiBody2
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final2 (c : Dev nD) :
    (dat2 (F := Ideal) V c).arrAt 4 cfg2.N
      = Cert.ReferenceIdeal.Spec.layer (F := Ideal) (V c (Pipeline.arrRef spec2 0)) (V c (Pipeline.arrRef spec2 1))
          (V c (Pipeline.arrRef spec2 2)) (V c (Pipeline.arrRef spec2 3)) :=
  (dat2 (F := Ideal) V c).arrAt_eq_of_cover 4 _ (fun t _ => (congrArg _ (after2_4 V c t)).trans (layer_flushed _ _ _ _ t)) layer_cover

end Cert.KernelIdeal.Hand

end
-- ==== Proof.KiVal3.lean ====
import proofs.«135532_j46231027974388_1_alg».proof.Proof.KiBody3
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final3 (c : Dev nD) :
    (dat3 (F := Ideal) V c).arrAt 4 cfg3.N
      = Cert.ReferenceIdeal.Spec.layer (F := Ideal) (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => (congrArg _ (after3_4 V c t)).trans (layer_flushed _ _ _ _ t)) layer_cover

end Cert.KernelIdeal.Hand

end
-- ==== Proof.KiVal4.lean ====
import proofs.«135532_j46231027974388_1_alg».proof.Proof.KiBody4
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final4 (c : Dev nD) :
    (dat4 (F := Ideal) V c).arrAt 4 cfg4.N
      = Cert.ReferenceIdeal.Spec.layer (F := Ideal) (V c (Pipeline.arrRef spec4 0)) (V c (Pipeline.arrRef spec4 1))
          (V c (Pipeline.arrRef spec4 2)) (V c (Pipeline.arrRef spec4 3)) :=
  (dat4 (F := Ideal) V c).arrAt_eq_of_cover 4 _ (fun t _ => (congrArg _ (after4_4 V c t)).trans (layer_flushed _ _ _ _ t)) layer_cover

end Cert.KernelIdeal.Hand

end
-- ==== Proof.KiVal5.lean ====
import proofs.«135532_j46231027974388_1_alg».proof.Proof.KiBody5
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final5 (c : Dev nD) :
    (dat5 (F := Ideal) V c).arrAt 4 cfg5.N
      = Cert.ReferenceIdeal.Spec.layer (F := Ideal) (V c (Pipeline.arrRef spec5 0)) (V c (Pipeline.arrRef spec5 1))
          (V c (Pipeline.arrRef spec5 2)) (V c (Pipeline.arrRef spec5 3)) :=
  (dat5 (F := Ideal) V c).arrAt_eq_of_cover 4 _ (fun t _ => (congrArg _ (after5_4 V c t)).trans (layer_flushed _ _ _ _ t)) layer_cover

end Cert.KernelIdeal.Hand

end
-- ==== Proof.KiVal6.lean ====
import proofs.«135532_j46231027974388_1_alg».proof.Proof.KiBody6
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final6 (c : Dev nD) :
    (dat6 (F := Ideal) V c).arrAt 4 cfg6.N
      = Cert.ReferenceIdeal.Spec.layer (F := Ideal) (V c (Pipeline.arrRef spec6 0)) (V c (Pipeline.arrRef spec6 1))
          (V c (Pipeline.arrRef spec6 2)) (V c (Pipeline.arrRef spec6 3)) :=
  (dat6 (F := Ideal) V c).arrAt_eq_of_cover 4 _ (fun t _ => (congrArg _ (after6_4 V c t)).trans (layer_flushed _ _ _ _ t)) layer_cover

end Cert.KernelIdeal.Hand

end
-- ==== Proof.KiVal7.lean ====
import proofs.«135532_j46231027974388_1_alg».proof.Proof.KiBody7
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final7 (c : Dev nD) :
    (dat7 (F := Ideal) V c).arrAt 4 cfg7.N
      = Cert.ReferenceIdeal.Spec.layer (F := Ideal) (V c (Pipeline.arrRef spec7 0)) (V c (Pipeline.arrRef spec7 1))
          (V c (Pipeline.arrRef spec7 2)) (V c (Pipeline.arrRef spec7 3)) :=
  (dat7 (F := Ideal) V c).arrAt_eq_of_cover 4 _ (fun t _ => (congrArg _ (after7_4 V c t)).trans (layer_flushed _ _ _ _ t)) layer_cover

end Cert.KernelIdeal.Hand

end
-- ==== Proof.KiVal8.lean ====
import proofs.«135532_j46231027974388_1_alg».proof.Proof.KiBody8
import proofs.«135532_j46231027974388_1_alg».proof.Proof.KiLayerVal

noncomputable section

namespace Cert.KernelIdeal.Hand

open Cert.KernelIdeal Cert.KernelIdeal.Gen
open Idealize.ShloMosaic Idealize.ShloMosaic.TcCoe
open Idealize.SL.Sem

variable (V : (c : Dev nD) → (b : Ref sig .tc) → Buf (Elt Ideal) ((c : Thread nD τ).loc b))

/-- At every point the output block is that block of the reference's layer of the four arrays, and the blocks cover the output. -/
theorem final8 (c : Dev nD) :
    (dat8 (F := Ideal) V c).arrAt 4 cfg8.N
      = Cert.ReferenceIdeal.Spec.layer (F := Ideal) (V c (Pipeline.arrRef spec8 0)) (V c (Pipeline.arrRef spec8 1))
          (V c (Pipeline.arrRef spec8 2)) (V c (Pipeline.arrRef spec8 3)) :=
  (dat8 (F := Ideal) V c).arrAt_eq_of_cover 4 _ (fun t _ => (congrArg _ (after8_4 V c t)).trans (layer_flushed _ _ _ _ t)) layer_cover

end Cert.KernelIdeal.Hand

end
-- ==== Proof.KiHeadSpec.lean ====
import Idealize.ShloMosaic.PureOps.Ideal
import Idealize.ShloMosaic.Lib.ValueIdx

noncomputable section

open scoped BigOperators

namespace Cert.HeadSpec

open Idealize.ShloMosaic Idealize.ShloMosaic.ValueIdx

def rowScore (r : Fin 64 → EReal) (w : (⟨2, ![64, 40]⟩ : Shape).Idx → EReal) (b : (⟨1, ![40]⟩ : Shape).Idx → EReal)
    (j : Fin 40) : EReal :=
  (∑ k : Fin 64, r k * w (ix2 k j)) + b (ix1 j)

def rowMax (s : Fin 40 → EReal) : EReal :=
  (Finset.univ : Finset (Fin 40)).fold max (Ideal.ofBits .f32 0xFF800000#32) s

def rowLsm (s : Fin 40 → EReal) (j : Fin 40) : EReal :=
  (s j - rowMax s) - Ideal.log (∑ q : Fin 40, Ideal.exp (s q - rowMax s))

def headRow (r : Fin 64 → EReal) (w : (⟨2, ![64, 40]⟩ : Shape).Idx → EReal) (b : (⟨1, ![40]⟩ : Shape).Idx → EReal)
    (j : Fin 40) : EReal :=
  rowLsm (rowScore r w b) j

def head {n : Nat} (h : (⟨2, ![n, 64]⟩ : Shape).Idx → EReal) (w : (⟨2, ![64, 40]⟩ : Shape).Idx → EReal)
    (b : (⟨1, ![40]⟩ : Shape).Idx → EReal) : (⟨2, ![n, 40]⟩ : Shape).Idx → EReal :=
  fun i => headRow (fun k => h (ix2 (⟨(i 0).val, idx2_lt0 i⟩ : Fin n) k)) w b ⟨(i 1).val, idx2_lt1 i⟩

theorem head_ix2 {n : Nat} (h : (⟨2, ![n, 64]⟩ : Shape).Idx → EReal) (w : (⟨2, ![64, 40]⟩ : Shape).Idx → EReal)
    (b : (⟨1, ![40]⟩ : Shape).Idx → EReal) (i : Fin n) (j : Fin 40) :
    head h w b (ix2 i j) = headRow (fun k => h (ix2 i k)) w b j := rfl

theorem max_init_rowMax (s : Fin 40 → EReal) :
    max (Ideal.ofBits .f32 0xFF800000#32) (rowMax s) = rowMax s :=
  max_eq_right ((Finset.le_fold_max _).2 (Or.inl le_rfl))

end Cert.HeadSpec

end
-- ==== Proof.KiPay9.lean ====
import proofs.«135532_j46231027974388_1_alg».proof.Proof.KiLayerMath
import proofs.«135532_j46231027974388_1_alg».proof.Proof.KiHeadSpec
import Idealize.ShloMosaic.PureOps.Ideal.Laws
import Idealize.ShloMosaic.Lib.ValueLayout

noncomputable section

open scoped BigOperators

namespace Cert.KernelIdeal.Hand

open Cert.KernelIdeal Cert.KernelIdeal.Gen Cert.HeadSpec
open Idealize.ShloMosaic Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def scoreBlk (x0 : Vec Ideal S2000x64 .f32) (x1 : Vec Ideal S64x40 .f32) (x2 : Vec Ideal S40 .f32) : FVec Ideal S2000x40 .f32 :=
  addf
    (matmul dot_S2000x64_S64x40_S2000x40_1_0_0_1_n_n none
      (truncf .bf16 (shapeCast S2000x64 x0 shapeCasts_S2000x64_S2000x64) bitsLt_bf16_f32)
      (truncf .bf16 x1 bitsLt_bf16_f32) (constant (F := Ideal) S2000x40 .f32 0x00000000#32))
    (broadcastTo S2000x40 (shapeCast S1x40 x2 shapeCasts_S40_S1x40) broadcasts_S1x40_S2000x40)

theorem prod9_apply (y0 : FVec Ideal S2000x64 .bf16) (y1 : FVec Ideal S64x40 .bf16) (p : Fin 2000) (q : Fin 40) :
    matmul dot_S2000x64_S64x40_S2000x40_1_0_0_1_n_n none y0 y1 (constant (F := Ideal) S2000x40 .f32 0x00000000#32) (ix2 p q)
      = ∑ k : Fin 64, y0 (ix2 p k) * y1 (ix2 k q) := by
  simp only [matmul]
  rw [Ideal.matmul_constant_zero_apply, plain_sum dot_S2000x64_S64x40_S2000x40_1_0_0_1_n_n rfl]

theorem scoreBlk_apply (x0 : Vec Ideal S2000x64 .f32) (x1 : Vec Ideal S64x40 .f32) (x2 : Vec Ideal S40 .f32)
    (p : Fin 2000) (q : Fin 40) :
    scoreBlk x0 x1 x2 (ix2 p q) = rowScore (fun k => x0 (ix2 p k)) x1 x2 q := by
  unfold scoreBlk rowScore
  have e0 : shapeCast S2000x64 x0 shapeCasts_S2000x64_S2000x64 = x0 := shapeCast_self x0 _
  rw [e0]
  refine congrArg₂ (fun a b : EReal => a + b) ?_ ?_
  · exact prod9_apply _ _ p q
  · exact (broadcastTo_1b_ab_apply _ _ p q).trans (shapeCast_a_1a_apply x2 _ 0 q)

theorem lift9 (p : Fin 2000) (k : Fin 40) : reduces_S2000x40_S2000.lift (ix1 p) k = ix2 p k :=
  funext fun a => Fin.ext (by match a with | ⟨0, _⟩ => rfl | ⟨1, _⟩ => rfl)

def colBlk (m : FVec Ideal S2000 .f32) : FVec Ideal S2000x40 .f32 :=
  broadcastTo S2000x40 (shapeCast S2000x1 m shapeCasts_S2000_S2000x1) broadcasts_S2000x1_S2000x40

theorem colBlk_apply (m : FVec Ideal S2000 .f32) (p : Fin 2000) (q : Fin 40) : colBlk m (ix2 p q) = m (ix1 p) :=
  (broadcastTo_a1_ab_apply _ _ p q).trans (shapeCast_a_a1_apply m _ p 0)

def rowMaxBlk (v : FVec Ideal S2000x40 .f32) : FVec Ideal S2000 .f32 :=
  multiReduction (F := Ideal) .maximumf [1] S2000 v 0xFF800000#32 reduces_S2000x40_S2000 (.inl rfl) rfl

theorem rowMaxBlk_apply (v : FVec Ideal S2000x40 .f32) (p : Fin 2000) :
    rowMaxBlk v (ix1 p) = rowMax (fun j => v (ix2 p j)) := by
  unfold rowMaxBlk rowMax
  refine (Ideal.multiReduction_maximumf_single v 0xFF800000#32 reduces_S2000x40_S2000 (.inl rfl) rfl (ix1 p)).trans ?_
  have e : (v ∘ reduces_S2000x40_S2000.lift (ix1 p)) = fun j : Fin 40 => v (ix2 p j) :=
    funext fun k => congrArg v (lift9 p k)
  exact congrArg (fun f : Fin 40 → EReal => (Finset.univ : Finset (Fin 40)).fold max (Ideal.ofBits .f32 0xFF800000#32) f) e

def shiftBlk (v : FVec Ideal S2000x40 .f32) : FVec Ideal S2000x40 .f32 :=
  subf v (colBlk (rowMaxBlk v))

theorem shiftBlk_apply (v : FVec Ideal S2000x40 .f32) (p : Fin 2000) (q : Fin 40) :
    shiftBlk v (ix2 p q) = v (ix2 p q) - rowMax (fun j => v (ix2 p j)) := by
  show v (ix2 p q) - colBlk (rowMaxBlk v) (ix2 p q) = _
  rw [colBlk_apply, rowMaxBlk_apply]

def sumBlk (v : FVec Ideal S2000x40 .f32) : FVec Ideal S2000 .f32 :=
  multiReduction (F := Ideal) .add [1] S2000 (exp (shiftBlk v)) 0x00000000#32 reduces_S2000x40_S2000 (.inl rfl) rfl

theorem sumBlk_apply (v : FVec Ideal S2000x40 .f32) (p : Fin 2000) :
    sumBlk v (ix1 p) = ∑ q : Fin 40, Ideal.exp (v (ix2 p q) - rowMax (fun j => v (ix2 p j))) := by
  unfold sumBlk
  refine (Ideal.multiReduction_add_single (exp (shiftBlk v)) 0x00000000#32 reduces_S2000x40_S2000 (.inl rfl) rfl (ix1 p)).trans ?_
  show ∑ k : Fin 40, exp (shiftBlk v) (reduces_S2000x40_S2000.lift (ix1 p) k) = _
  refine Finset.sum_congr rfl fun k _ => ?_
  rw [lift9]
  show Ideal.exp (shiftBlk v (ix2 p k)) = _
  rw [shiftBlk_apply]

def lsmBlk (v : FVec Ideal S2000x40 .f32) : FVec Ideal S2000x40 .f32 :=
  subf (shiftBlk v)
    (broadcastTo S2000x40 (log (shapeCast S2000x1 (sumBlk v) shapeCasts_S2000_S2000x1)) broadcasts_S2000x1_S2000x40)

theorem lsmBlk_apply (v : FVec Ideal S2000x40 .f32) (p : Fin 2000) (q : Fin 40) :
    lsmBlk v (ix2 p q) = rowLsm (fun j => v (ix2 p j)) q := by
  unfold lsmBlk rowLsm
  show shiftBlk v (ix2 p q)
      - broadcastTo S2000x40 (log (shapeCast S2000x1 (sumBlk v) shapeCasts_S2000_S2000x1)) broadcasts_S2000x1_S2000x40 (ix2 p q) = _
  rw [shiftBlk_apply, broadcastTo_a1_ab_apply]
  show _ - Ideal.log (shapeCast S2000x1 (sumBlk v) shapeCasts_S2000_S2000x1 (ix2 p (0 : Fin 1))) = _
  rw [shapeCast_a_a1_apply, sumBlk_apply]

theorem pay9_eq (x0 : Vec Ideal S2000x64 .f32) (x1 : Vec Ideal S64x40 .f32) (x2 : Vec Ideal S40 .f32) :
    k9_pay1 (F := Ideal) x0 x1 x2 = lsmBlk (scoreBlk x0 x1 x2) := rfl

theorem pay9_apply (x0 : Vec Ideal S2000x64 .f32) (x1 : Vec Ideal S64x40 .f32) (x2 : Vec Ideal S40 .f32)
    (p : Fin 2000) (q : Fin 40) :
    k9_pay1 (F := Ideal) x0 x1 x2 (ix2 p q) = headRow (fun k => x0 (ix2 p k)) x1 x2 q := by
  rw [pay9_eq, lsmBlk_apply]
  unfold headRow
  exact congrArg (fun s : Fin 40 → EReal => rowLsm s q) (funext fun j => scoreBlk_apply x0 x1 x2 p j)

end Cert.KernelIdeal.Hand

end
-- ==== Proof.KiRefHead.lean ====
import proofs.«135532_j46231027974388_1_alg».proof.Proof.RefSpec
import proofs.«135532_j46231027974388_1_alg».proof.Proof.KiHeadSpec
import proofs.«135532_j46231027974388_1_alg».proof.Proof.KiLayerMath
import Idealize.ShloMosaic.PureOps.Ideal.Laws
import Idealize.ShloMosaic.Lib.Pipeline.Value

noncomputable section

open scoped BigOperators

namespace Cert.ReferenceIdeal.Hand

open Cert.ReferenceIdeal Cert.ReferenceIdeal.Gen Cert.HeadSpec
open Idealize.ShloMosaic Idealize.ShloMosaic.ValueIdx

theorem bcast_col_apply {α : Type} (x : S100000.Idx → α) (p : Fin 100000) (u : Fin 1) :
    broadcastInDim S100000x1 ![0] bcast_S100000_S100000x1_0 x (ix2 p u) = x (ix1 p) :=
  broadcastInDim_apply _ bcast_S100000_S100000x1_0 x (ix2 p u) (ix1 p) (fun a => match a with
    | ⟨0, _⟩ => by show p.val = if (100000 : Nat) = 1 then 0 else p.val; rw [if_neg (by decide)])

theorem bcast_rows_apply {α : Type} (x : S100000x1.Idx → α) (p : Fin 100000) (q : Fin 40) :
    broadcastInDim S100000x40 ![0, 1] bcast_S100000x1_S100000x40_0_1 x (ix2 p q) = x (ix2 p (0 : Fin 1)) :=
  broadcastInDim_apply _ bcast_S100000x1_S100000x40_0_1 x (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

theorem bcast_bias_apply {α : Type} (b : S40.Idx → α) (p : Fin 100000) (q : Fin 40) :
    broadcastInDim S100000x40 ![0, 1] bcast_S1x40_S100000x40_0_1 (broadcastInDim S1x40 ![1] bcast_S40_S1x40_1 b) (ix2 p q)
      = b (ix1 q) :=
  (broadcastInDim_apply _ bcast_S1x40_S100000x40_0_1 (broadcastInDim S1x40 ![1] bcast_S40_S1x40_1 b) (ix2 p q)
      (ix2 (0 : Fin 1) q) (fun a => match a with
    | ⟨0, _⟩ => by show 0 = if (1 : Nat) = 1 then 0 else p.val; rw [if_pos rfl]
    | ⟨1, _⟩ => by show q.val = if (40 : Nat) = 1 then 0 else q.val; rw [if_neg (by decide)])).trans
    (broadcastInDim_apply _ bcast_S40_S1x40_1 b (ix2 (0 : Fin 1) q) (ix1 q) (fun a => match a with
    | ⟨0, _⟩ => by show q.val = if (40 : Nat) = 1 then 0 else q.val; rw [if_neg (by decide)]))

theorem bcast_scalar_apply {α : Type} (x : S_.Idx → α) (p : Fin 100000) :
    broadcastInDim S100000 ![] bcast_S_S100000 x (ix1 p) = x ix0 :=
  broadcastInDim_apply _ bcast_S_S100000 x (ix1 p) ix0 (fun a => a.elim0)

theorem prodR_apply (h : FVec Ideal S100000x64 .f32) (w : FVec Ideal S64x40 .f32) (p : Fin 100000) (q : Fin 40) :
    Host.dotGeneral dot_S100000x64_S64x40_S100000x40_1_0_0_1_n_n none h w (ix2 p q) = ∑ k : Fin 64, h (ix2 p k) * w (ix2 k q) := by
  simp only [Host.dotGeneral]
  rw [Ideal.dotGeneral_apply, Cert.KernelIdeal.Hand.plain_sum dot_S100000x64_S64x40_S100000x40_1_0_0_1_n_n rfl]

def scoreArr (h : FVec Ideal S100000x64 .f32) (w : FVec Ideal S64x40 .f32) (b : FVec Ideal S40 .f32) : FVec Ideal S100000x40 .f32 :=
  addf
    (Host.dotGeneral dot_S100000x64_S64x40_S100000x40_1_0_0_1_n_n none h w)
    (broadcastInDim S100000x40 ![0, 1] bcast_S1x40_S100000x40_0_1 (broadcastInDim S1x40 ![1] bcast_S40_S1x40_1 b))

theorem scoreArr_apply (h : FVec Ideal S100000x64 .f32) (w : FVec Ideal S64x40 .f32) (b : FVec Ideal S40 .f32)
    (p : Fin 100000) (q : Fin 40) :
    scoreArr h w b (ix2 p q) = rowScore (fun k => h (ix2 p k)) w b q := by
  unfold scoreArr rowScore
  refine congrArg₂ (fun x y : EReal => x + y) ?_ ?_
  · exact prodR_apply h w p q
  · exact bcast_bias_apply b p q

theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

theorem liftR (hr : S100000x40.Reduces [1] S100000) (p : Fin 100000) (k : Fin 40) : hr.lift (ix1 p) k = ix2 p k :=
  funext fun a => Fin.ext (by match a with | ⟨0, _⟩ => rfl | ⟨1, _⟩ => rfl)

def colArr (m : FVec Ideal S100000 .f32) : FVec Ideal S100000x40 .f32 :=
  broadcastInDim S100000x40 ![0, 1] bcast_S100000x1_S100000x40_0_1 (broadcastInDim S100000x1 ![0] bcast_S100000_S100000x1_0 m)

theorem colArr_apply (m : FVec Ideal S100000 .f32) (p : Fin 100000) (q : Fin 40) : colArr m (ix2 p q) = m (ix1 p) :=
  (bcast_rows_apply _ p q).trans (bcast_col_apply m p 0)

def rowMaxArr (z : FVec Ideal S100000x40 .f32) : FVec Ideal S100000 .f32 :=
  maximumf
    (broadcastInDim S100000 ![] bcast_S_S100000 (constant (F := Ideal) S_ .f32 0xFF800000#32))
    (Host.reduce FloatOps.maximumf z (constant (F := Ideal) S_ .f32 0xFF800000#32) reducesTo_S100000x40_S100000_d1 h_S_)

theorem rowMaxArr_apply (z : FVec Ideal S100000x40 .f32) (p : Fin 100000) :
    rowMaxArr z (ix1 p) = rowMax (fun j => z (ix2 p j)) := by
  have hr : S100000x40.Reduces [1] S100000 := by decide
  have e1 : Host.reduce FloatOps.maximumf z (constant (F := Ideal) S_ .f32 0xFF800000#32) reducesTo_S100000x40_S100000_d1 h_S_ (ix1 p)
      = rowMax (fun j => z (ix2 p j)) := by
    refine (Host.reduce_eq_fold_single FloatOps.maximumf z (constant (F := Ideal) S_ .f32 0xFF800000#32)
      reducesTo_S100000x40_S100000_d1 hr h_S_ (ix1 p)).trans ?_
    have e : (z ∘ hr.lift (ix1 p)) = fun j : Fin 40 => z (ix2 p j) := funext fun k => congrArg z (liftR hr p k)
    exact congrArg (fun f : Fin 40 → EReal => (Finset.univ : Finset (Fin 40)).fold max (Ideal.ofBits .f32 0xFF800000#32) f) e
  unfold rowMaxArr
  refine (maximumf_apply _ _ (ix1 p)).trans ?_
  rw [e1, bcast_scalar_apply, constant_apply]
  exact max_init_rowMax _

def shiftArr (z : FVec Ideal S100000x40 .f32) : FVec Ideal S100000x40 .f32 :=
  subf z (colArr (rowMaxArr z))

theorem shiftArr_apply (z : FVec Ideal S100000x40 .f32) (p : Fin 100000) (q : Fin 40) :
    shiftArr z (ix2 p q) = z (ix2 p q) - rowMax (fun j => z (ix2 p j)) := by
  unfold shiftArr
  refine (subf_apply _ _ (ix2 p q)).trans ?_
  rw [colArr_apply, rowMaxArr_apply]

def sumArr (z : FVec Ideal S100000x40 .f32) : FVec Ideal S100000 .f32 :=
  Host.reduceAdd (Host.exp (shiftArr z)) (constant (F := Ideal) S_ .f32 0x00000000#32) reducesTo_S100000x40_S100000_d1 h_S_

theorem sumArr_apply (z : FVec Ideal S100000x40 .f32) (p : Fin 100000) :
    sumArr z (ix1 p) = ∑ q : Fin 40, Ideal.exp (z (ix2 p q) - rowMax (fun j => z (ix2 p j))) := by
  have hr : S100000x40.Reduces [1] S100000 := by decide
  have e : ∀ y0 : FVec Ideal S100000x40 .f32,
      Host.reduceAdd y0 (constant (F := Ideal) S_ .f32 0x00000000#32) reducesTo_S100000x40_S100000_d1 h_S_ (ix1 p)
        = ∑ k : Fin 40, y0 (ix2 p k) := by
    intro y0
    simp only [Host.reduceAdd, Ideal.hostReduceAdd_def]
    rw [Ideal.hostReduceAdd_single reducesTo_S100000x40_S100000_d1 hr]
    show Ideal.ofBits .f32 0x00000000#32 + _ = _
    rw [Ideal.ofBits_zero_f32, zero_add]
    refine Finset.sum_congr rfl fun k _ => ?_
    exact congrArg y0 (liftR hr p k)
  unfold sumArr
  rw [e]
  refine Finset.sum_congr rfl fun k _ => ?_
  refine (hostExp_apply _ (ix2 p k)).trans ?_
  rw [shiftArr_apply]

theorem logSoftmax_eq (z : FVec Ideal S100000x40 .f32) :
    Spec.logSoftmax (F := Ideal) z
      = subf (shiftArr z)
          (broadcastInDim S100000x40 ![0, 1] bcast_S100000x1_S100000x40_0_1
            (Host.log (broadcastInDim S100000x1 ![0] bcast_S100000_S100000x1_0 (sumArr z)))) := rfl

theorem logSoftmax_apply (z : FVec Ideal S100000x40 .f32) (p : Fin 100000) (q : Fin 40) :
    Spec.logSoftmax (F := Ideal) z (ix2 p q) = rowLsm (fun j => z (ix2 p j)) q := by
  rw [logSoftmax_eq]
  unfold rowLsm
  refine (subf_apply _ _ (ix2 p q)).trans ?_
  rw [shiftArr_apply, bcast_rows_apply, hostLog_apply, bcast_col_apply, sumArr_apply]

theorem logits_eq_head (h : FVec Ideal S100000x64 .f32) (w : FVec Ideal S64x40 .f32) (b : FVec Ideal S40 .f32) :
    Spec.logits (F := Ideal) h w b = head h w b := by
  funext i
  obtain ⟨p, q, rfl⟩ : ∃ (p : Fin 100000) (q : Fin 40), i = ix2 p q := ⟨i 0, i 1, eq_ix2 i⟩
  rw [head_ix2]
  show Spec.logSoftmax (F := Ideal) (scoreArr h w b) (ix2 p q) = _
  rw [logSoftmax_apply]
  unfold headRow
  exact congrArg (fun s : Fin 40 → EReal => rowLsm s q) (funext fun j => scoreArr_apply h w b p j)

end Cert.ReferenceIdeal.Hand

end
-- ==== Proof.KiVal9.lean ====
import proofs.«135532_j46231027974388_1_alg».proof.Proof.KiBody9
import proofs.«135532_j46231027974388_1_alg».proof.Proof.KiPay9
import proofs.«135532_j46231027974388_1_alg».proof.Proof.KiRefHead
import proofs.«135532_j46231027974388_1_alg».proof.Proof.KiLayerVal

noncomputable section

namespace Cert.KernelIdeal.Hand

open Cert.KernelIdeal Cert.KernelIdeal.Gen Cert.HeadSpec
open Idealize.ShloMosaic Idealize.ShloMosaic.TcCoe Idealize.ShloMosaic.ValueIdx Idealize.SL.Sem
open Idealize.ShloMosaic.Pipeline (Window)

theorem hz9 : (![0] : Fin 1 → Nat) = fun _ => 0 := funext fun a => by fin_cases a; rfl

/-- The payload of the three arrays read through a point's rectangles is the reference's head read through the output's: a block row is an array row, and the columns, the weight and the bias have one block. -/
theorem head_flushed (h : Vec Ideal S100000x64 .f32) (w : Vec Ideal S64x40 .f32) (b : Vec Ideal S40 .f32) (t : Fin cfg9.N) :
    out9_3 (fun y => h ((win9_0.rect t).emb y)) (fun y => w ((win9_1.rect t).emb y)) (fun y => b ((win9_2.rect t).emb y))
      = fun j => Cert.ReferenceIdeal.Spec.logits (F := Ideal) h w b ((win9_3.rect t).emb j) := by
  funext j
  obtain ⟨p, q, rfl⟩ : ∃ (p : Fin 2000) (q : Fin 40), j = ix2 p q := ⟨j 0, j 1, eq_ix2 j⟩
  unfold out9_3
  rw [View.canon_unit_zero hz]
  simp only [View.ld_unit_zero (S := S2000x64) hz, View.ld_unit_zero (S := S64x40) hz, View.ld_unit_zero (S := S40) hz9]
  rw [pay9_apply, Cert.ReferenceIdeal.Hand.logits_eq_head]
  unfold head
  refine (congrArg₂ (fun w' b' => headRow _ w' b' q)
      (funext fun y => congrArg w
        (Shape.idx_ext₂ (win9_1.rect_emb_val_of_index_zero t 0 rfl y) (win9_1.rect_emb_val_of_index_zero t 1 rfl y)))
      (funext fun y => congrArg b (funext fun a => Fin.ext (by
        match a with
        | ⟨0, _⟩ => exact win9_2.rect_emb_val_of_index_zero t 0 rfl y)))).trans ?_
  exact congrArg₂ (fun r (j : Fin 40) => headRow r w b j)
    (funext fun k => congrArg h (Shape.idx_ext₂ rfl ((win9_0.rect_emb_val_of_index_zero t 1 rfl _).trans rfl)))
    (Fin.ext (win9_3.rect_emb_val_of_index_zero t 1 rfl (ix2 p q)).symm)

/-- The output's blocks cover its array: row `r` is in the block of point `r / 2000`. -/
theorem cover9 (i : S100000x40.Idx) :
    ∃ t : Fin cfg9.N, (cfg9.win 3).flush t = true ∧ i ∈ ((cfg9.win 3).blk t).view.set := by
  have hi0 : (i 0).val < 100000 := (i 0).isLt
  have hi1 : (i 1).val < 40 := (i 1).isLt
  have ht : (i 0).val / 2000 < cfg9.N := by rw [show cfg9.N = 50 from N_9]; omega
  have e0 : win9_3.index ⟨_, ht⟩ 0 = (i 0).val / 2000 := idx_out ⟨_, ht⟩
  refine ⟨⟨_, ht⟩, flush9_3 _, ?_⟩
  show i ∈ ((View.whole (Pipeline.arrRef spec9 3)).slice (win9_3.rect ⟨_, ht⟩)).set
  rw [View.set_slice_whole, Rect.mem_set_unit]
  refine Fin.forall_fin_two.mpr ⟨?_, ?_⟩
  · show win9_3.index ⟨_, ht⟩ 0 * 2000 ≤ (i 0).val ∧ (i 0).val < win9_3.index ⟨_, ht⟩ 0 * 2000 + 2000
    rw [e0]; omega
  · show 0 * 40 ≤ (i 1).val ∧ (i 1).val < 0 * 40 + 40
    omega

variable (V : (c : Dev nD) → (b : Ref sig .tc) → Buf (Elt Ideal) ((c : Thread nD τ).loc b))

/-- At every point the output block is that block of the reference's head of the three arrays, and the blocks cover the output. -/
theorem final9 (c : Dev nD) :
    (dat9 (F := Ideal) V c).arrAt 3 cfg9.N
      = Cert.ReferenceIdeal.Spec.logits (F := Ideal) (V c (Pipeline.arrRef spec9 0)) (V c (Pipeline.arrRef spec9 1)) (V c (Pipeline.arrRef spec9 2)) :=
  (dat9 (F := Ideal) V c).arrAt_eq_of_cover 3 _ (fun t _ => (congrArg _ (after9_3 V c t)).trans (head_flushed _ _ _ t)) cover9

end Cert.KernelIdeal.Hand

end
-- ==== Proof.KiChain.lean ====
import proofs.«135532_j46231027974388_1_alg».proof.Proof.KiFold
import proofs.«135532_j46231027974388_1_alg».proof.Proof.RefSpec
import proofs.«135532_j46231027974388_1_alg».proof.Proof.KiHost
import proofs.«135532_j46231027974388_1_alg».proof.Proof.KiVal0
import proofs.«135532_j46231027974388_1_alg».proof.Proof.KiVal1
import proofs.«135532_j46231027974388_1_alg».proof.Proof.KiVal2
import proofs.«135532_j46231027974388_1_alg».proof.Proof.KiVal3
import proofs.«135532_j46231027974388_1_alg».proof.Proof.KiVal4
import proofs.«135532_j46231027974388_1_alg».proof.Proof.KiVal5
import proofs.«135532_j46231027974388_1_alg».proof.Proof.KiVal6
import proofs.«135532_j46231027974388_1_alg».proof.Proof.KiVal7
import proofs.«135532_j46231027974388_1_alg».proof.Proof.KiVal8
import proofs.«135532_j46231027974388_1_alg».proof.Proof.KiVal9
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Cert.ReferenceIdeal (Spec.src Spec.dst Spec.norm Spec.proj Spec.layer Spec.logits Spec.h0 Spec.h1 Spec.h2 Spec.h3 Spec.h4
  Spec.h5 Spec.h6 Spec.h7 Spec.h8 Spec.y)

variable (m : (ℓ : Loc nD τ sig) → Buf (Elt Ideal) ℓ)

abbrev carriedRefs : List (Ref sig .tc) := [main_v1, main_v3, main_v33, main_v34, main_arg5, main_arg6, main_arg7]

structure Carried (c : Dev nD) (W : Valuation τ sig (Elt Ideal)) : Prop where
  src : W main_v1 = Spec.src (a1 m c)
  dst : W main_v3 = Spec.dst (a1 m c)
  norm : W main_v33 = Spec.norm (F := Ideal) (a1 m c) (a2 m c)
  h0 : W main_v34 = Spec.h0 (F := Ideal) (a0 m c) (a3 m c) (a4 m c)
  gw : W main_arg5 = (a5 m c)
  wout : W main_arg6 = (a6 m c)
  bout : W main_arg7 = (a7 m c)

theorem kept_upd (W : Valuation τ sig (Elt Ideal)) (o b : Ref sig .tc) (x) (h : b ≠ o) :
    Function.update W (Proc.devRef .tc o) x (Proc.devRef .tc b) = W (Proc.devRef .tc b) :=
  Function.update_of_ne (StableHlo.devRef_ne_of_ne h) _ _

/-- A stretch and a region result that write none of the carried buffers keep the carried facts. -/
theorem carried_step (c : Dev nD) (W : Valuation τ sig (Elt Ideal)) (ops : List (HloOp τ sig (Elt Ideal)))
    (Wr : List (Ref sig .tc)) (hW : ops.Forall fun op => op.writes ⊆ (Wr.map (Proc.devRef (τ := τ) .tc)).toFinset)
    (o : Ref sig .tc) (x : (Proc.devRef (τ := τ) .tc o : DevRef τ sig).ty.Contents (Elt Ideal))
    (hk : ∀ r ∈ carriedRefs, r ∉ Wr ∧ r ≠ o) (I : Carried m c W) :
    Carried m c (Function.update (StableHlo.after ops W) (Proc.devRef .tc o) x) :=
  have k : ∀ r (hr : r ∈ carriedRefs), Function.update (StableHlo.after ops W) (Proc.devRef .tc o) x (Proc.devRef .tc r) = W (Proc.devRef .tc r) :=
    fun r hr => (kept_upd _ o r x (hk r hr).2).trans (StableHlo.after_of_writes_sub ops W hW (hk r hr).1)
  ⟨(k _ (by decide)).trans I.src, (k _ (by decide)).trans I.dst, (k _ (by decide)).trans I.norm, (k _ (by decide)).trans I.h0,
    (k _ (by decide)).trans I.gw, (k _ (by decide)).trans I.wout, (k _ (by decide)).trans I.bout⟩

/-- No operation before the first region writes an argument. -/
theorem V5_arg (c : Dev nD) (r : Ref sig .tc)
    (h : r ∉ hostOps0_W ++ (hostOps0_1_W ++ (hostOps0_2_W ++ (hostOps0_3_W ++ hostOps0_4_W)))) : V5 m c r = V0 m c r := by
  simp only [List.mem_append, not_or] at h
  rw [V5_of m c r h.2.2.2.2, V4_of m c r h.2.2.2.1, V3_of m c r h.2.2.1, V2_of m c r h.2.1, V1_of m c r h.1]

theorem carried6 (c : Dev nD) : Carried m c (W6 m c) := by
  have k : ∀ r : Ref sig .tc, r ≠ main_v34 → W6 m c r = V5 m c r := fun r h => kept_upd (W5 m c) main_v34 r (res0 m c) h
  have hr : res0 m c = Spec.proj (F := Ideal) (V5 m c main_arg0) (V5 m c main_arg3) (V5 m c main_arg4) := final0 (tcv (W5 m)) c
  refine ⟨(k _ (by decide)).trans (host_src m c), (k _ (by decide)).trans (host_dst m c), (k _ (by decide)).trans (host_norm m c), ?_,
    (k _ (by decide)).trans (V5_arg m c _ (by decide)), (k _ (by decide)).trans (V5_arg m c _ (by decide)), (k _ (by decide)).trans (V5_arg m c _ (by decide))⟩
  show Function.update (W5 m c) main_v34 (res0 m c) main_v34 = _
  rw [Function.update_self, hr, V5_arg m c _ (by decide), V5_arg m c _ (by decide), V5_arg m c _ (by decide)]
  rfl

theorem chain1 (c : Dev nD) : Carried m c (W8 m c) ∧ W8 m c main_v50 = Spec.h1 (F := Ideal) (a0 m c) (a1 m c) (a2 m c) (a3 m c) (a4 m c) (a5 m c) := by
  have I := carried6 m c
  have hr : res1 m c = Spec.layer (F := Ideal) (W7 m c main_v47) (W7 m c main_v34) (W7 m c main_v34) (W7 m c main_v49) :=
    final1 (tcv (W7 m)) c
  refine ⟨carried_step m c (W6 m c) hostOps1 hostOps1_W hostOps1_writes main_v50 (res1 m c) (by decide) I, ?_⟩
  show Function.update (W7 m c) main_v50 (res1 m c) main_v50 = _
  rw [Function.update_self, hr]
  dsimp only [W7]
  after_results_simp
  rw [I.src, I.dst, I.norm, I.h0, I.gw]
  rfl

theorem chain2 (c : Dev nD) : Carried m c (W10 m c) ∧ W10 m c main_v66 = Spec.h2 (F := Ideal) (a0 m c) (a1 m c) (a2 m c) (a3 m c) (a4 m c) (a5 m c) := by
  obtain ⟨I, hp⟩ := chain1 m c
  have hr : res2 m c = Spec.layer (F := Ideal) (W9 m c main_v63) (W9 m c main_v50) (W9 m c main_v34) (W9 m c main_v65) :=
    final2 (tcv (W9 m)) c
  refine ⟨carried_step m c (W8 m c) hostOps2 hostOps2_W hostOps2_writes main_v66 (res2 m c) (by decide) I, ?_⟩
  show Function.update (W9 m c) main_v66 (res2 m c) main_v66 = _
  rw [Function.update_self, hr]
  dsimp only [W9]
  after_results_simp
  rw [I.src, I.dst, I.norm, hp, I.h0, I.gw]
  rfl

theorem chain3 (c : Dev nD) : Carried m c (W12 m c) ∧ W12 m c main_v82 = Spec.h3 (F := Ideal) (a0 m c) (a1 m c) (a2 m c) (a3 m c) (a4 m c) (a5 m c) := by
  obtain ⟨I, hp⟩ := chain2 m c
  have hr : res3 m c = Spec.layer (F := Ideal) (W11 m c main_v79) (W11 m c main_v66) (W11 m c main_v34) (W11 m c main_v81) :=
    final3 (tcv (W11 m)) c
  refine ⟨carried_step m c (W10 m c) hostOps3 hostOps3_W hostOps3_writes main_v82 (res3 m c) (by decide) I, ?_⟩
  show Function.update (W11 m c) main_v82 (res3 m c) main_v82 = _
  rw [Function.update_self, hr]
  dsimp only [W11]
  after_results_simp
  rw [I.src, I.dst, I.norm, hp, I.h0, I.gw]
  rfl

theorem chain4 (c : Dev nD) : Carried m c (W14 m c) ∧ W14 m c main_v98 = Spec.h4 (F := Ideal) (a0 m c) (a1 m c) (a2 m c) (a3 m c) (a4 m c) (a5 m c) := by
  obtain ⟨I, hp⟩ := chain3 m c
  have hr : res4 m c = Spec.layer (F := Ideal) (W13 m c main_v95) (W13 m c main_v82) (W13 m c main_v34) (W13 m c main_v97) :=
    final4 (tcv (W13 m)) c
  refine ⟨carried_step m c (W12 m c) hostOps4 hostOps4_W hostOps4_writes main_v98 (res4 m c) (by decide) I, ?_⟩
  show Function.update (W13 m c) main_v98 (res4 m c) main_v98 = _
  rw [Function.update_self, hr]
  dsimp only [W13]
  after_results_simp
  rw [I.src, I.dst, I.norm, hp, I.h0, I.gw]
  rfl

theorem chain5 (c : Dev nD) : Carried m c (W16 m c) ∧ W16 m c main_v114 = Spec.h5 (F := Ideal) (a0 m c) (a1 m c) (a2 m c) (a3 m c) (a4 m c) (a5 m c) := by
  obtain ⟨I, hp⟩ := chain4 m c
  have hr : res5 m c = Spec.layer (F := Ideal) (W15 m c main_v111) (W15 m c main_v98) (W15 m c main_v34) (W15 m c main_v113) :=
    final5 (tcv (W15 m)) c
  refine ⟨carried_step m c (W14 m c) hostOps5 hostOps5_W hostOps5_writes main_v114 (res5 m c) (by decide) I, ?_⟩
  show Function.update (W15 m c) main_v114 (res5 m c) main_v114 = _
  rw [Function.update_self, hr]
  dsimp only [W15]
  after_results_simp
  rw [I.src, I.dst, I.norm, hp, I.h0, I.gw]
  rfl

theorem chain6 (c : Dev nD) : Carried m c (W18 m c) ∧ W18 m c main_v130 = Spec.h6 (F := Ideal) (a0 m c) (a1 m c) (a2 m c) (a3 m c) (a4 m c) (a5 m c) := by
  obtain ⟨I, hp⟩ := chain5 m c
  have hr : res6 m c = Spec.layer (F := Ideal) (W17 m c main_v127) (W17 m c main_v114) (W17 m c main_v34) (W17 m c main_v129) :=
    final6 (tcv (W17 m)) c
  refine ⟨carried_step m c (W16 m c) hostOps6 hostOps6_W hostOps6_writes main_v130 (res6 m c) (by decide) I, ?_⟩
  show Function.update (W17 m c) main_v130 (res6 m c) main_v130 = _
  rw [Function.update_self, hr]
  dsimp only [W17]
  after_results_simp
  rw [I.src, I.dst, I.norm, hp, I.h0, I.gw]
  rfl

theorem chain7 (c : Dev nD) : Carried m c (W20 m c) ∧ W20 m c main_v146 = Spec.h7 (F := Ideal) (a0 m c) (a1 m c) (a2 m c) (a3 m c) (a4 m c) (a5 m c) := by
  obtain ⟨I, hp⟩ := chain6 m c
  have hr : res7 m c = Spec.layer (F := Ideal) (W19 m c main_v143) (W19 m c main_v130) (W19 m c main_v34) (W19 m c main_v145) :=
    final7 (tcv (W19 m)) c
  refine ⟨carried_step m c (W18 m c) hostOps7 hostOps7_W hostOps7_writes main_v146 (res7 m c) (by decide) I, ?_⟩
  show Function.update (W19 m c) main_v146 (res7 m c) main_v146 = _
  rw [Function.update_self, hr]
  dsimp only [W19]
  after_results_simp
  rw [I.src, I.dst, I.norm, hp, I.h0, I.gw]
  rfl

theorem chain8 (c : Dev nD) : Carried m c (W22 m c) ∧ W22 m c main_v162 = Spec.h8 (F := Ideal) (a0 m c) (a1 m c) (a2 m c) (a3 m c) (a4 m c) (a5 m c) := by
  obtain ⟨I, hp⟩ := chain7 m c
  have hr : res8 m c = Spec.layer (F := Ideal) (W21 m c main_v159) (W21 m c main_v146) (W21 m c main_v34) (W21 m c main_v161) :=
    final8 (tcv (W21 m)) c
  refine ⟨carried_step m c (W20 m c) hostOps8 hostOps8_W hostOps8_writes main_v162 (res8 m c) (by decide) I, ?_⟩
  show Function.update (W21 m c) main_v162 (res8 m c) main_v162 = _
  rw [Function.update_self, hr]
  dsimp only [W21]
  after_results_simp
  rw [I.src, I.dst, I.norm, hp, I.h0, I.gw]
  rfl

theorem stage9 (c : Dev nD) : W23 m c main_v163 = Spec.y (F := Ideal) (a0 m c) (a1 m c) (a2 m c) (a3 m c) (a4 m c) (a5 m c) (a6 m c) (a7 m c) := by
  obtain ⟨I, h8⟩ := chain8 m c
  have hr : res9 m c = Spec.logits (F := Ideal) (W22 m c main_v162) (W22 m c main_arg6) (W22 m c main_arg7) := final9 (tcv (W22 m)) c
  show Function.update (W22 m c) main_v163 (res9 m c) main_v163 = _
  rw [Function.update_self, hr, h8, I.wout, I.bout]
  rfl

theorem kernel_y (c : Dev nD) :
    V40 m (outs m) c main_v163 = Cert.ReferenceIdeal.Spec.y (F := Ideal) (a0 m c) (a1 m c) (a2 m c) (a3 m c) (a4 m c) (a5 m c) (a6 m c) (a7 m c) := by
  after_results_simp
  rw [V23_eq]
  exact stage9 m c

theorem kernel_lconstr (c : Dev nD) : V40 m (outs m) c main_v211 = Cert.ReferenceIdeal.Spec.lconstr (F := Ideal) (a5 m c) :=
  host_lconstr m c (outs m) (by rw [V23_eq]; exact (kept_upd _ main_v163 main_arg5 _ (by decide)).trans (chain8 m c).1.gw)

end Cert.KernelIdeal.Hand

end
-- ==== Proof.RefRun.lean ====
import proofs.«135532_j46231027974388_1_alg».proof.Proof.RefOps
import proofs.«135532_j46231027974388_1_alg».proof.Proof.RefSpec
import Idealize.ShloMosaic.Lib.StableHlo.Run
import Idealize.ShloMosaic.Lib.Pipeline.Frame

noncomputable section

namespace Cert.ReferenceIdeal.Hand

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- `op` writes exactly the buffer `r`, and determines it. -/
abbrev WritesTo (op : HloOp τ sig (Elt F)) (r : Ref sig .tc) : Prop :=
  op.writes = {Proc.devRef .tc r} ∧ op.fresh = ∅

/-- A buffer outside `w` keeps its contents through operations that write, one by one, the buffers `w`. -/
theorem after_keep {l : List (HloOp τ sig (Elt F))} {w : List (Ref sig .tc)} (h : List.Forall₂ WritesTo l w) :
    ∀ (V : Valuation τ sig (Elt F)) {r : Ref sig .tc}, r ∉ w →
      after l V (Proc.devRef .tc r) = V (Proc.devRef .tc r) := by
  induction h with
  | nil => exact fun _ _ _ => rfl
  | cons hw _ ih =>
    intro V r hr
    rw [after_cons, ih _ fun h => hr (List.mem_cons_of_mem _ h), HloOp.result_of_not_mem]
    rw [hw.1, Finset.mem_singleton]
    exact fun he => hr (Proc.devRef_injective _ he ▸ List.mem_cons_self)

theorem fresh_of_writes {l : List (HloOp τ sig (Elt F))} {w : List (Ref sig .tc)} (h : List.Forall₂ WritesTo l w) :
    ∀ op ∈ l, op.fresh = ∅ := by
  induction h with
  | nil => exact fun _ h => nomatch h
  | cons hw _ ih => exact List.forall_mem_cons.mpr ⟨hw.2, ih⟩

/-- The buffer each of the 412 operations writes, in order. -/
abbrev written : List (Ref sig .tc) :=
  [main_v0, main_v1, main_v2, main_v3, main_v4, main_v5, main_v6, main_v7, main_cst, main_v8, main_v9, main_v10, main_cst_0, main_v11, main_v12, main_cst_1, main_v13, main_v14, main_cst_2, main_call0_v0, main_call0_v1, main_v15, main_v16, main_cst_3, main_call1_v0, main_call1_v1, main_v17, main_c, main_v18, main_v19, main_c_4, main_v20, main_v21, main_v22, main_v23, main_v24, main_v25, main_c_5, main_v26, main_v27, main_c_6, main_v28, main_v29, main_v30, main_v31, main_v32, main_v33, main_v34, main_v35, main_v36, main_v37, main_call2_cst, main_call2_v0, main_v38,
   main_v39, main_c_7, main_v40, main_v41, main_c_8, main_v42, main_v43, main_v44, main_v45, main_v46, main_v47, main_v48, main_cst_9, main_v49, main_v50, main_v51, main_cst_10, main_v52, main_v53, main_cst_11, main_v54, main_v55, main_v56, main_cst_12, main_v57, main_v58, main_v59, main_v60, main_v61, main_v62, main_call3_cst, main_call3_v0, main_v63,
   main_v64, main_c_13, main_v65, main_v66, main_c_14, main_v67, main_v68, main_v69, main_v70, main_v71, main_v72, main_v73, main_cst_15, main_v74, main_v75, main_v76, main_cst_16, main_v77, main_v78, main_cst_17, main_v79, main_v80, main_v81, main_cst_18, main_v82, main_v83, main_v84, main_v85, main_v86, main_v87, main_call4_cst, main_call4_v0, main_v88,
   main_v89, main_c_19, main_v90, main_v91, main_c_20, main_v92, main_v93, main_v94, main_v95, main_v96, main_v97, main_v98, main_cst_21, main_v99, main_v100, main_v101, main_cst_22, main_v102, main_v103, main_cst_23, main_v104, main_v105, main_v106, main_cst_24, main_v107, main_v108, main_v109, main_v110, main_v111, main_v112, main_call5_cst, main_call5_v0, main_v113,
   main_v114, main_c_25, main_v115, main_v116, main_c_26, main_v117, main_v118, main_v119, main_v120, main_v121, main_v122, main_v123, main_cst_27, main_v124, main_v125, main_v126, main_cst_28, main_v127, main_v128, main_cst_29, main_v129, main_v130, main_v131, main_cst_30, main_v132, main_v133, main_v134, main_v135, main_v136, main_v137, main_call6_cst, main_call6_v0, main_v138,
   main_v139, main_c_31, main_v140, main_v141, main_c_32, main_v142, main_v143, main_v144, main_v145, main_v146, main_v147, main_v148, main_cst_33, main_v149, main_v150, main_v151, main_cst_34, main_v152, main_v153, main_cst_35, main_v154, main_v155, main_v156, main_cst_36, main_v157, main_v158, main_v159, main_v160, main_v161, main_v162, main_call7_cst, main_call7_v0, main_v163,
   main_v164, main_c_37, main_v165, main_v166, main_c_38, main_v167, main_v168, main_v169, main_v170, main_v171, main_v172, main_v173, main_cst_39, main_v174, main_v175, main_v176, main_cst_40, main_v177, main_v178, main_cst_41, main_v179, main_v180, main_v181, main_cst_42, main_v182, main_v183, main_v184, main_v185, main_v186, main_v187, main_call8_cst, main_call8_v0, main_v188,
   main_v189, main_c_43, main_v190, main_v191, main_c_44, main_v192, main_v193, main_v194, main_v195, main_v196, main_v197, main_v198, main_cst_45, main_v199, main_v200, main_v201, main_cst_46, main_v202, main_v203, main_cst_47, main_v204, main_v205, main_v206, main_cst_48, main_v207, main_v208, main_v209, main_v210, main_v211, main_v212, main_call9_cst, main_call9_v0, main_v213,
   main_v214, main_c_49, main_v215, main_v216, main_c_50, main_v217, main_v218, main_v219, main_v220, main_v221, main_v222, main_v223, main_cst_51, main_v224, main_v225, main_v226, main_cst_52, main_v227, main_v228, main_cst_53, main_v229, main_v230, main_v231, main_cst_54, main_v232, main_v233, main_v234, main_v235, main_v236, main_v237, main_call10_cst, main_call10_v0, main_v238,
   main_v239, main_v240, main_v241, main_v242, main_call11_cst, main_call11_v0, main_call11_cst_0, main_call11_v1, main_call11_v2, main_call11_v3, main_call11_v4, main_call11_v5, main_call11_v6, main_call11_cst_1, main_call11_v7, main_call11_v8, main_call11_v9, main_call11_v10, main_v243,
   main_v244, main_v245, main_c_55, main_v246, main_v247, main_v248, main_v249, main_v250, main_v251, main_cst_56, main_v252, main_v253, main_v254, main_call12_v0, main_call12_cst, main_call12_v1, main_v255, main_v256, main_v257, main_v258, main_call13_v0, main_call13_cst, main_call13_v1, main_v259, main_v260, main_v261, main_v262, main_v263, main_call14_v0, main_call14_cst, main_call14_v1, main_v264, main_v265, main_v266, main_v267, main_v268, main_call15_v0, main_call15_cst, main_call15_v1, main_v269, main_v270, main_v271, main_v272, main_v273, main_call16_v0, main_call16_cst, main_call16_v1, main_v274, main_v275, main_v276, main_v277, main_v278, main_call17_v0, main_call17_cst, main_call17_v1, main_v279, main_v280, main_v281, main_v282, main_v283, main_call18_v0, main_call18_cst, main_call18_v1, main_v284, main_v285, main_v286, main_v287, main_v288, main_call19_v0, main_call19_cst, main_call19_v1, main_v289, main_v290, main_cst_57, main_v291]

theorem ops_written : List.Forall₂ WritesTo (ops : List (HloOp τ sig (Elt F))) written := by
  repeat' first | exact ⟨rfl, rfl⟩ | constructor

section Chain

variable (V : Valuation τ sig (Elt F))

/-- The contents after the first `n` operations. -/
def upTo (n : ℕ) : Valuation τ sig (Elt F) := after (ops.take n) V

theorem upTo_add (a k : ℕ) : upTo V (a + k) = after ((ops.drop a).take k) (upTo V a) := by
  rw [upTo, List.take_add, StableHlo.after_append]; rfl

/-- Each buffer is written once: past its operation it keeps its contents. -/
theorem upTo_keep {a n : ℕ} (h : a ≤ n) {r : Ref sig .tc} (hr : r ∉ written.drop a) :
    upTo V n (Proc.devRef .tc r) = upTo V a (Proc.devRef .tc r) := by
  obtain ⟨k, rfl⟩ := Nat.exists_eq_add_of_le h
  rw [upTo_add]
  exact after_keep (List.forall₂_take k (List.forall₂_drop a ops_written)) _ fun hm => hr (List.mem_of_mem_take hm)

theorem upTo_arg (n : ℕ) {r : Ref sig .tc} (hr : r ∉ written) : upTo V n (Proc.devRef .tc r) = V (Proc.devRef .tc r) :=
  upTo_keep V (Nat.zero_le n) hr

/-- What the first 54 operations leave, read anywhere later: the endpoint rows, the normalised weights, the projected input; the stacked weights are an argument. -/
theorem upTo_head {n : ℕ} (h : 54 ≤ n) :
    upTo V n (Proc.devRef .tc main_v1) = Spec.src (V (Proc.devRef .tc main_arg1))
    ∧ upTo V n (Proc.devRef .tc main_v3) = Spec.dst (V (Proc.devRef .tc main_arg1))
    ∧ upTo V n (Proc.devRef .tc main_v33) = Spec.norm (V (Proc.devRef .tc main_arg1)) (V (Proc.devRef .tc main_arg2))
    ∧ upTo V n (Proc.devRef .tc main_v38) = Spec.h0 (V (Proc.devRef .tc main_arg0)) (V (Proc.devRef .tc main_arg3)) (V (Proc.devRef .tc main_arg4))
    ∧ upTo V n (Proc.devRef .tc main_arg5) = V (Proc.devRef .tc main_arg5) := by
  rw [upTo_keep V h (r := main_v1) (by decide), upTo_keep V h (r := main_v3) (by decide), upTo_keep V h (r := main_v33) (by decide),
    upTo_keep V h (r := main_v38) (by decide), upTo_arg V n (r := main_arg5) (by decide)]
  dsimp only [upTo, ops, List.take]
  after_results_simp
  exact ⟨rfl, rfl, rfl, rfl, trivial⟩

theorem upTo_h1 : upTo V 87 (Proc.devRef .tc main_v63) = Spec.h1 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 54) (by decide)
  refine (congrFun (upTo_add V 54 33) _).trans ?_
  dsimp only [ops, List.drop, List.take]
  after_results_simp
  rw [hs, hd, hn, h0, h5]
  rfl

theorem upTo_h2 : upTo V 120 (Proc.devRef .tc main_v88) = Spec.h2 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 87) (by decide)
  refine (congrFun (upTo_add V 87 33) _).trans ?_
  dsimp only [ops, List.drop, List.take]
  after_results_simp
  rw [hs, hd, hn, upTo_h1 V, h0, h5]
  rfl

theorem upTo_h3 : upTo V 153 (Proc.devRef .tc main_v113) = Spec.h3 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 120) (by decide)
  refine (congrFun (upTo_add V 120 33) _).trans ?_
  dsimp only [ops, List.drop, List.take]
  after_results_simp
  rw [hs, hd, hn, upTo_h2 V, h0, h5]
  rfl

theorem upTo_h4 : upTo V 186 (Proc.devRef .tc main_v138) = Spec.h4 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 153) (by decide)
  refine (congrFun (upTo_add V 153 33) _).trans ?_
  dsimp only [ops, List.drop, List.take]
  after_results_simp
  rw [hs, hd, hn, upTo_h3 V, h0, h5]
  rfl

theorem upTo_h5 : upTo V 219 (Proc.devRef .tc main_v163) = Spec.h5 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 186) (by decide)
  refine (congrFun (upTo_add V 186 33) _).trans ?_
  dsimp only [ops, List.drop, List.take]
  after_results_simp
  rw [hs, hd, hn, upTo_h4 V, h0, h5]
  rfl

theorem upTo_h6 : upTo V 252 (Proc.devRef .tc main_v188) = Spec.h6 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 219) (by decide)
  refine (congrFun (upTo_add V 219 33) _).trans ?_
  dsimp only [ops, List.drop, List.take]
  after_results_simp
  rw [hs, hd, hn, upTo_h5 V, h0, h5]
  rfl

theorem upTo_h7 : upTo V 285 (Proc.devRef .tc main_v213) = Spec.h7 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 252) (by decide)
  refine (congrFun (upTo_add V 252 33) _).trans ?_
  dsimp only [ops, List.drop, List.take]
  after_results_simp
  rw [hs, hd, hn, upTo_h6 V, h0, h5]
  rfl

theorem upTo_h8 : upTo V 318 (Proc.devRef .tc main_v238) = Spec.h8 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨hs, hd, hn, h0, h5⟩ := upTo_head V (n := 285) (by decide)
  refine (congrFun (upTo_add V 285 33) _).trans ?_
  dsimp only [ops, List.drop, List.take]
  after_results_simp
  rw [hs, hd, hn, upTo_h7 V, h0, h5]
  rfl

/-- Contents carried to a typed reference's buffer and back are the contents. -/
private theorem ofBuf_toBuf {T : BufTy} (x : TRef sig T) (v : T.Contents (Elt F)) : x.ofBuf (x.toBuf v) = v := by
  obtain ⟨r, rfl, _, _⟩ := x
  rfl

set_option maxRecDepth 4096 in
theorem upTo_y : upTo V 337 (Proc.devRef .tc main_v243) = Spec.y (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  refine (congrFun (upTo_add V 318 19) _).trans ?_
  dsimp only [ops, List.drop, List.take]
  after_results_simp
  simp only [ofBuf_toBuf]
  rw [upTo_h8 V, upTo_arg V 318 (r := main_arg6) (by decide), upTo_arg V 318 (r := main_arg7) (by decide)]
  rfl

theorem pen_out (W : Valuation τ sig (Elt F)) :
    after ((ops.drop 337).take 75) W (Proc.devRef .tc main_v291) = Spec.lconstr (W (Proc.devRef .tc main_arg5)) := by
  dsimp only [ops, List.drop, List.take]
  after_results_simp
  rfl

theorem upTo_pen : upTo V 412 (Proc.devRef .tc main_v291) = Spec.lconstr (V (Proc.devRef .tc main_arg5)) :=
  (congrFun (upTo_add V 337 75) _).trans ((pen_out _).trans (congrArg _ (upTo_arg V 337 (by decide))))

end Chain

/-- The reference's run, read back through the chain above. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243)
        = Spec.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v291) = Spec.lconstr (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    have e : ∀ b : Ref sig .tc,
        r.2.mem ((c.tc : Thread nD τ).loc b) = upTo (launchContents m c) 412 (Proc.devRef .tc b) := fun b => h c b
    have a : ∀ b : Ref sig .tc, b ∉ written → r.2.mem ((c.tc : Thread nD τ).loc b) = m ((c.tc : Thread nD τ).loc b) :=
      fun b hb => (e b).trans (upTo_arg _ 412 hb)
    exact ⟨(e main_v243).trans ((upTo_keep _ (a := 337) (by decide) (by decide)).trans (upTo_y _)), (e main_v291).trans (upTo_pen _),
      a main_arg0 (by decide), a main_arg1 (by decide), a main_arg2 (by decide), a main_arg3 (by decide), a main_arg4 (by decide), a main_arg5 (by decide), a main_arg6 (by decide), a main_arg7 (by decide)⟩)
    (run_seq scopedRefs_eq scopedSems_eq defs main (fun _ => ops) main_eq (fun _ => ops_sub) m ρ (fun _ => fresh_of_writes ops_written))

end Cert.ReferenceIdeal.Hand

end
-- ==== Proof.lean ====
import proofs.«135532_j46231027974388_1_alg».proof.Defs
import proofs.«135532_j46231027974388_1_alg».proof.Proof.Gen.Kernel
import proofs.«135532_j46231027974388_1_alg».proof.Proof.Gen.KernelIdeal
import proofs.«135532_j46231027974388_1_alg».proof.Proof.Gen.ReferenceIdeal
import proofs.«135532_j46231027974388_1_alg».proof.Proof.Gen.Pre_finite_inputs
import proofs.«135532_j46231027974388_1_alg».proof.Proof.KbFrame
import proofs.«135532_j46231027974388_1_alg».proof.Proof.KiFrame
import proofs.«135532_j46231027974388_1_alg».proof.Proof.KiRun
import proofs.«135532_j46231027974388_1_alg».proof.Proof.KiChain
import proofs.«135532_j46231027974388_1_alg».proof.Proof.RefSpec
import proofs.«135532_j46231027974388_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2)
    (Cert.ReferenceIdeal.Hand.ref_run (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.Spec.y (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.ReferenceIdeal.Spec.lconstr (F := Ideal) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_y m c),
        (h c).2.1.trans (Cert.KernelIdeal.Hand.kernel_lconstr m c), (h c).2.2⟩)
      (Cert.KernelIdeal.Hand.run_main (F := Ideal) m ρ)
  · refine (θ_run Cert.ReferenceIdeal.defs _ _).mono
      (fun _ h c => ⟨(h c).1.trans ?_, (h c).2.1.trans ?_, (h c).2.2⟩)
      (Cert.ReferenceIdeal.Hand.ref_run (F := Ideal) m' ρ')
    · obtain ⟨e0, e1, e2, e3, e4, e5, e6, e7⟩ := hagree c
      rw [e0, e1, e2, e3, e4, e5, e6, e7]
    · obtain ⟨-, -, -, -, -, e5, -, -⟩ := hagree c
      rw [e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
